-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S2048x1024 : Shape := ⟨2, ![2048, 1024]⟩
abbrev S2048x2048 : Shape := ⟨2, ![2048, 2048]⟩
abbrev S32 : Shape := ⟨1, ![32]⟩
abbrev S_ : Shape := ⟨0, ![]⟩
abbrev S1 : Shape := ⟨1, ![1]⟩
abbrev S64x1024 : Shape := ⟨2, ![64, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_16 : BitVec 32 := 0#32
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_12 v2
  let c2_i32_15 : BitVec 32 := 2#32
  let v18 : BitVec 32 := Scalar.muli v17 c2_i32_15
  let v19 : BitVec 32 := Scalar.addi c0_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v20 : BitVec 32 := Scalar.muli v5 c1_i32_17
  let v21 : BitVec 32 := Scalar.addi v19 v20
  v21.toNat
def k0_dev4 (d0 : Dev nD) : Nat :=
  let c0_i32_26 : BitVec 32 := 0#32
  let c1_i32_22 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.subi c1_i32_22 v2
  let c2_i32_25 : BitVec 32 := 2#32
  let v29 : BitVec 32 := Scalar.muli v28 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_35 : BitVec 32 := 0#32
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c2_i32_34 : BitVec 32 := 2#32
  let v40 : BitVec 32 := Scalar.muli v39 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev6 (d0 : Dev nD) : Nat :=
  let c0_i32_43 : BitVec 32 := 0#32
  let c1_i32_40 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v50 : BitVec 32 := Scalar.subi c1_i32_40 v2
  let c2_i32_42 : BitVec 32 := 2#32
  let v51 : BitVec 32 := Scalar.muli v50 c2_i32_42
  let v52 : BitVec 32 := Scalar.addi c0_i32_43 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v53 : BitVec 32 := Scalar.muli v5 c1_i32_44
  let v54 : BitVec 32 := Scalar.addi v52 v53
  v54.toNat
def k0_dev7 (d0 : Dev nD) : Nat :=
  let c0_i32_51 : BitVec 32 := 0#32
  let c1_i32_48 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v61 : BitVec 32 := Scalar.subi c1_i32_48 v2
  let c2_i32_50 : BitVec 32 := 2#32
  let v62 : BitVec 32 := Scalar.muli v61 c2_i32_50
  let v63 : BitVec 32 := Scalar.addi c0_i32_51 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v64 : BitVec 32 := Scalar.muli v5 c1_i32_52
  let v65 : BitVec 32 := Scalar.addi v63 v64
  v65.toNat
def k0_dev8 (d0 : Dev nD) : Nat :=
  let c0_i32_59 : BitVec 32 := 0#32
  let c1_i32_56 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v72 : BitVec 32 := Scalar.subi c1_i32_56 v2
  let c2_i32_58 : BitVec 32 := 2#32
  let v73 : BitVec 32 := Scalar.muli v72 c2_i32_58
  let v74 : BitVec 32 := Scalar.addi c0_i32_59 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v75 : BitVec 32 := Scalar.muli v5 c1_i32_60
  let v76 : BitVec 32 := Scalar.addi v74 v75
  v76.toNat
def k0_dev9 (d0 : Dev nD) : Nat :=
  let c0_i32_67 : BitVec 32 := 0#32
  let c1_i32_64 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v83 : BitVec 32 := Scalar.subi c1_i32_64 v2
  let c2_i32_66 : BitVec 32 := 2#32
  let v84 : BitVec 32 := Scalar.muli v83 c2_i32_66
  let v85 : BitVec 32 := Scalar.addi c0_i32_67 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v86 : BitVec 32 := Scalar.muli v5 c1_i32_68
  let v87 : BitVec 32 := Scalar.addi v85 v86
  v87.toNat
def k0_dev10 (d0 : Dev nD) : Nat :=
  let c0_i32_75 : BitVec 32 := 0#32
  let c1_i32_72 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v94 : BitVec 32 := Scalar.subi c1_i32_72 v2
  let c2_i32_74 : BitVec 32 := 2#32
  let v95 : BitVec 32 := Scalar.muli v94 c2_i32_74
  let v96 : BitVec 32 := Scalar.addi c0_i32_75 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v97 : BitVec 32 := Scalar.muli v5 c1_i32_76
  let v98 : BitVec 32 := Scalar.addi v96 v97
  v98.toNat
def k0_dev11 (d0 : Dev nD) : Nat :=
  let c0_i32_83 : BitVec 32 := 0#32
  let c1_i32_80 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v105 : BitVec 32 := Scalar.subi c1_i32_80 v2
  let c2_i32_82 : BitVec 32 := 2#32
  let v106 : BitVec 32 := Scalar.muli v105 c2_i32_82
  let v107 : BitVec 32 := Scalar.addi c0_i32_83 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v108 : BitVec 32 := Scalar.muli v5 c1_i32_84
  let v109 : BitVec 32 := Scalar.addi v107 v108
  v109.toNat
def k0_dev12 (d0 : Dev nD) : Nat :=
  let c0_i32_91 : BitVec 32 := 0#32
  let c1_i32_88 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v116 : BitVec 32 := Scalar.subi c1_i32_88 v2
  let c2_i32_90 : BitVec 32 := 2#32
  let v117 : BitVec 32 := Scalar.muli v116 c2_i32_90
  let v118 : BitVec 32 := Scalar.addi c0_i32_91 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v119 : BitVec 32 := Scalar.muli v5 c1_i32_92
  let v120 : BitVec 32 := Scalar.addi v118 v119
  v120.toNat
def k0_dev13 (d0 : Dev nD) : Nat :=
  let c0_i32_99 : BitVec 32 := 0#32
  let c1_i32_96 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v127 : BitVec 32 := Scalar.subi c1_i32_96 v2
  let c2_i32_98 : BitVec 32 := 2#32
  let v128 : BitVec 32 := Scalar.muli v127 c2_i32_98
  let v129 : BitVec 32 := Scalar.addi c0_i32_99 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v130 : BitVec 32 := Scalar.muli v5 c1_i32_100
  let v131 : BitVec 32 := Scalar.addi v129 v130
  v131.toNat
def k0_dev14 (d0 : Dev nD) : Nat :=
  let c0_i32_107 : BitVec 32 := 0#32
  let c1_i32_104 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v138 : BitVec 32 := Scalar.subi c1_i32_104 v2
  let c2_i32_106 : BitVec 32 := 2#32
  let v139 : BitVec 32 := Scalar.muli v138 c2_i32_106
  let v140 : BitVec 32 := Scalar.addi c0_i32_107 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v141 : BitVec 32 := Scalar.muli v5 c1_i32_108
  let v142 : BitVec 32 := Scalar.addi v140 v141
  v142.toNat
def k0_dev15 (d0 : Dev nD) : Nat :=
  let c0_i32_115 : BitVec 32 := 0#32
  let c1_i32_112 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v149 : BitVec 32 := Scalar.subi c1_i32_112 v2
  let c2_i32_114 : BitVec 32 := 2#32
  let v150 : BitVec 32 := Scalar.muli v149 c2_i32_114
  let v151 : BitVec 32 := Scalar.addi c0_i32_115 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v152 : BitVec 32 := Scalar.muli v5 c1_i32_116
  let v153 : BitVec 32 := Scalar.addi v151 v152
  v153.toNat
def k0_dev16 (d0 : Dev nD) : Nat :=
  let c0_i32_123 : BitVec 32 := 0#32
  let c1_i32_120 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v160 : BitVec 32 := Scalar.subi c1_i32_120 v2
  let c2_i32_122 : BitVec 32 := 2#32
  let v161 : BitVec 32 := Scalar.muli v160 c2_i32_122
  let v162 : BitVec 32 := Scalar.addi c0_i32_123 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v163 : BitVec 32 := Scalar.muli v5 c1_i32_124
  let v164 : BitVec 32 := Scalar.addi v162 v163
  v164.toNat
def k0_dev17 (d0 : Dev nD) : Nat :=
  let c0_i32_131 : BitVec 32 := 0#32
  let c1_i32_128 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v171 : BitVec 32 := Scalar.subi c1_i32_128 v2
  let c2_i32_130 : BitVec 32 := 2#32
  let v172 : BitVec 32 := Scalar.muli v171 c2_i32_130
  let v173 : BitVec 32 := Scalar.addi c0_i32_131 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v174 : BitVec 32 := Scalar.muli v5 c1_i32_132
  let v175 : BitVec 32 := Scalar.addi v173 v174
  v175.toNat
def k0_dev18 (d0 : Dev nD) : Nat :=
  let c0_i32_139 : BitVec 32 := 0#32
  let c1_i32_136 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v182 : BitVec 32 := Scalar.subi c1_i32_136 v2
  let c2_i32_138 : BitVec 32 := 2#32
  let v183 : BitVec 32 := Scalar.muli v182 c2_i32_138
  let v184 : BitVec 32 := Scalar.addi c0_i32_139 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v185 : BitVec 32 := Scalar.muli v5 c1_i32_140
  let v186 : BitVec 32 := Scalar.addi v184 v185
  v186.toNat
def k0_dev19 (d0 : Dev nD) : Nat :=
  let c0_i32_147 : BitVec 32 := 0#32
  let c1_i32_144 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v193 : BitVec 32 := Scalar.subi c1_i32_144 v2
  let c2_i32_146 : BitVec 32 := 2#32
  let v194 : BitVec 32 := Scalar.muli v193 c2_i32_146
  let v195 : BitVec 32 := Scalar.addi c0_i32_147 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v196 : BitVec 32 := Scalar.muli v5 c1_i32_148
  let v197 : BitVec 32 := Scalar.addi v195 v196
  v197.toNat
def k0_dev20 (d0 : Dev nD) : Nat :=
  let c0_i32_155 : BitVec 32 := 0#32
  let c1_i32_152 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v204 : BitVec 32 := Scalar.subi c1_i32_152 v2
  let c2_i32_154 : BitVec 32 := 2#32
  let v205 : BitVec 32 := Scalar.muli v204 c2_i32_154
  let v206 : BitVec 32 := Scalar.addi c0_i32_155 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v207 : BitVec 32 := Scalar.muli v5 c1_i32_156
  let v208 : BitVec 32 := Scalar.addi v206 v207
  v208.toNat
def k0_dev21 (d0 : Dev nD) : Nat :=
  let c0_i32_163 : BitVec 32 := 0#32
  let c1_i32_160 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v215 : BitVec 32 := Scalar.subi c1_i32_160 v2
  let c2_i32_162 : BitVec 32 := 2#32
  let v216 : BitVec 32 := Scalar.muli v215 c2_i32_162
  let v217 : BitVec 32 := Scalar.addi c0_i32_163 v216
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v218 : BitVec 32 := Scalar.muli v5 c1_i32_164
  let v219 : BitVec 32 := Scalar.addi v217 v218
  v219.toNat
def k0_dev22 (d0 : Dev nD) : Nat :=
  let c0_i32_171 : BitVec 32 := 0#32
  let c1_i32_168 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v226 : BitVec 32 := Scalar.subi c1_i32_168 v2
  let c2_i32_170 : BitVec 32 := 2#32
  let v227 : BitVec 32 := Scalar.muli v226 c2_i32_170
  let v228 : BitVec 32 := Scalar.addi c0_i32_171 v227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v229 : BitVec 32 := Scalar.muli v5 c1_i32_172
  let v230 : BitVec 32 := Scalar.addi v228 v229
  v230.toNat
def k0_dev23 (d0 : Dev nD) : Nat :=
  let c0_i32_179 : BitVec 32 := 0#32
  let c1_i32_176 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v237 : BitVec 32 := Scalar.subi c1_i32_176 v2
  let c2_i32_178 : BitVec 32 := 2#32
  let v238 : BitVec 32 := Scalar.muli v237 c2_i32_178
  let v239 : BitVec 32 := Scalar.addi c0_i32_179 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v240 : BitVec 32 := Scalar.muli v5 c1_i32_180
  let v241 : BitVec 32 := Scalar.addi v239 v240
  v241.toNat
def k0_dev24 (d0 : Dev nD) : Nat :=
  let c0_i32_187 : BitVec 32 := 0#32
  let c1_i32_184 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v248 : BitVec 32 := Scalar.subi c1_i32_184 v2
  let c2_i32_186 : BitVec 32 := 2#32
  let v249 : BitVec 32 := Scalar.muli v248 c2_i32_186
  let v250 : BitVec 32 := Scalar.addi c0_i32_187 v249
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v251 : BitVec 32 := Scalar.muli v5 c1_i32_188
  let v252 : BitVec 32 := Scalar.addi v250 v251
  v252.toNat
def k0_dev25 (d0 : Dev nD) : Nat :=
  let c0_i32_195 : BitVec 32 := 0#32
  let c1_i32_192 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v259 : BitVec 32 := Scalar.subi c1_i32_192 v2
  let c2_i32_194 : BitVec 32 := 2#32
  let v260 : BitVec 32 := Scalar.muli v259 c2_i32_194
  let v261 : BitVec 32 := Scalar.addi c0_i32_195 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_196 : BitVec 32 := 1#32
  let v262 : BitVec 32 := Scalar.muli v5 c1_i32_196
  let v263 : BitVec 32 := Scalar.addi v261 v262
  v263.toNat
def k0_dev26 (d0 : Dev nD) : Nat :=
  let c0_i32_203 : BitVec 32 := 0#32
  let c1_i32_200 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v270 : BitVec 32 := Scalar.subi c1_i32_200 v2
  let c2_i32_202 : BitVec 32 := 2#32
  let v271 : BitVec 32 := Scalar.muli v270 c2_i32_202
  let v272 : BitVec 32 := Scalar.addi c0_i32_203 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v273 : BitVec 32 := Scalar.muli v5 c1_i32_204
  let v274 : BitVec 32 := Scalar.addi v272 v273
  v274.toNat
def k0_dev27 (d0 : Dev nD) : Nat :=
  let c0_i32_211 : BitVec 32 := 0#32
  let c1_i32_208 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v281 : BitVec 32 := Scalar.subi c1_i32_208 v2
  let c2_i32_210 : BitVec 32 := 2#32
  let v282 : BitVec 32 := Scalar.muli v281 c2_i32_210
  let v283 : BitVec 32 := Scalar.addi c0_i32_211 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v284 : BitVec 32 := Scalar.muli v5 c1_i32_212
  let v285 : BitVec 32 := Scalar.addi v283 v284
  v285.toNat
def k0_dev28 (d0 : Dev nD) : Nat :=
  let c0_i32_219 : BitVec 32 := 0#32
  let c1_i32_216 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v292 : BitVec 32 := Scalar.subi c1_i32_216 v2
  let c2_i32_218 : BitVec 32 := 2#32
  let v293 : BitVec 32 := Scalar.muli v292 c2_i32_218
  let v294 : BitVec 32 := Scalar.addi c0_i32_219 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v295 : BitVec 32 := Scalar.muli v5 c1_i32_220
  let v296 : BitVec 32 := Scalar.addi v294 v295
  v296.toNat
def k0_dev29 (d0 : Dev nD) : Nat :=
  let c0_i32_227 : BitVec 32 := 0#32
  let c1_i32_224 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v303 : BitVec 32 := Scalar.subi c1_i32_224 v2
  let c2_i32_226 : BitVec 32 := 2#32
  let v304 : BitVec 32 := Scalar.muli v303 c2_i32_226
  let v305 : BitVec 32 := Scalar.addi c0_i32_227 v304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_228 : BitVec 32 := 1#32
  let v306 : BitVec 32 := Scalar.muli v5 c1_i32_228
  let v307 : BitVec 32 := Scalar.addi v305 v306
  v307.toNat
def k0_dev30 (d0 : Dev nD) : Nat :=
  let c0_i32_235 : BitVec 32 := 0#32
  let c1_i32_232 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v314 : BitVec 32 := Scalar.subi c1_i32_232 v2
  let c2_i32_234 : BitVec 32 := 2#32
  let v315 : BitVec 32 := Scalar.muli v314 c2_i32_234
  let v316 : BitVec 32 := Scalar.addi c0_i32_235 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v317 : BitVec 32 := Scalar.muli v5 c1_i32_236
  let v318 : BitVec 32 := Scalar.addi v316 v317
  v318.toNat
def k0_dev31 (d0 : Dev nD) : Nat :=
  let c0_i32_243 : BitVec 32 := 0#32
  let c1_i32_240 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v325 : BitVec 32 := Scalar.subi c1_i32_240 v2
  let c2_i32_242 : BitVec 32 := 2#32
  let v326 : BitVec 32 := Scalar.muli v325 c2_i32_242
  let v327 : BitVec 32 := Scalar.addi c0_i32_243 v326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v328 : BitVec 32 := Scalar.muli v5 c1_i32_244
  let v329 : BitVec 32 := Scalar.addi v327 v328
  v329.toNat
def k0_dev32 (d0 : Dev nD) : Nat :=
  let c0_i32_251 : BitVec 32 := 0#32
  let c1_i32_248 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v336 : BitVec 32 := Scalar.subi c1_i32_248 v2
  let c2_i32_250 : BitVec 32 := 2#32
  let v337 : BitVec 32 := Scalar.muli v336 c2_i32_250
  let v338 : BitVec 32 := Scalar.addi c0_i32_251 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v339 : BitVec 32 := Scalar.muli v5 c1_i32_252
  let v340 : BitVec 32 := Scalar.addi v338 v339
  v340.toNat
def k0_dev33 (d0 : Dev nD) : Nat :=
  let c0_i32_259 : BitVec 32 := 0#32
  let c1_i32_256 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v347 : BitVec 32 := Scalar.subi c1_i32_256 v2
  let c2_i32_258 : BitVec 32 := 2#32
  let v348 : BitVec 32 := Scalar.muli v347 c2_i32_258
  let v349 : BitVec 32 := Scalar.addi c0_i32_259 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v350 : BitVec 32 := Scalar.muli v5 c1_i32_260
  let v351 : BitVec 32 := Scalar.addi v349 v350
  v351.toNat
def k0_dev34 (d0 : Dev nD) : Nat :=
  let c0_i32_267 : BitVec 32 := 0#32
  let c1_i32_264 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v358 : BitVec 32 := Scalar.subi c1_i32_264 v2
  let c2_i32_266 : BitVec 32 := 2#32
  let v359 : BitVec 32 := Scalar.muli v358 c2_i32_266
  let v360 : BitVec 32 := Scalar.addi c0_i32_267 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v361 : BitVec 32 := Scalar.muli v5 c1_i32_268
  let v362 : BitVec 32 := Scalar.addi v360 v361
  v362.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_272 : BitVec 32 := 0#32
  let v369 : BitVec 1 := Scalar.cmpi .eq v5 c0_i32_272
  let v370 : BitVec 32 := Scalar.extui v369
  let c0_i32_337 : BitVec 32 := 0#32
  let v371 : BitVec 1 := Scalar.cmpi .ne v370 c0_i32_337
  v371

def k0_dev35 (d0 : Dev nD) : Nat :=
  let c0_i32_425 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_424 : BitVec 32 := 2#32
  let v395 : BitVec 32 := Scalar.muli v2 c2_i32_424
  let v396 : BitVec 32 := Scalar.addi c0_i32_425 v395
  let c1_i32_421 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v394 : BitVec 32 := Scalar.subi c1_i32_421 v5
  let c1_i32_426 : BitVec 32 := 1#32
  let v397 : BitVec 32 := Scalar.muli v394 c1_i32_426
  let v398 : BitVec 32 := Scalar.addi v396 v397
  v398.toNat
def k0_dev36 (d0 : Dev nD) : Nat :=
  let c0_i32_452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_451 : BitVec 32 := 2#32
  let v425 : BitVec 32 := Scalar.muli v2 c2_i32_451
  let v426 : BitVec 32 := Scalar.addi c0_i32_452 v425
  let c1_i32_448 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v424 : BitVec 32 := Scalar.subi c1_i32_448 v5
  let c1_i32_453 : BitVec 32 := 1#32
  let v427 : BitVec 32 := Scalar.muli v424 c1_i32_453
  let v428 : BitVec 32 := Scalar.addi v426 v427
  v428.toNat
def k0_dev37 (d0 : Dev nD) : Nat :=
  let c0_i32_479 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_478 : BitVec 32 := 2#32
  let v455 : BitVec 32 := Scalar.muli v2 c2_i32_478
  let v456 : BitVec 32 := Scalar.addi c0_i32_479 v455
  let c1_i32_475 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v454 : BitVec 32 := Scalar.subi c1_i32_475 v5
  let c1_i32_480 : BitVec 32 := 1#32
  let v457 : BitVec 32 := Scalar.muli v454 c1_i32_480
  let v458 : BitVec 32 := Scalar.addi v456 v457
  v458.toNat
def k0_dev38 (d0 : Dev nD) : Nat :=
  let c0_i32_506 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_505 : BitVec 32 := 2#32
  let v485 : BitVec 32 := Scalar.muli v2 c2_i32_505
  let v486 : BitVec 32 := Scalar.addi c0_i32_506 v485
  let c1_i32_502 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v484 : BitVec 32 := Scalar.subi c1_i32_502 v5
  let c1_i32_507 : BitVec 32 := 1#32
  let v487 : BitVec 32 := Scalar.muli v484 c1_i32_507
  let v488 : BitVec 32 := Scalar.addi v486 v487
  v488.toNat
def k0_dev39 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v515 : BitVec 32 := Scalar.muli v2 c2_i32_532
  let v516 : BitVec 32 := Scalar.addi c0_i32_533 v515
  let c1_i32_529 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v514 : BitVec 32 := Scalar.subi c1_i32_529 v5
  let c1_i32_534 : BitVec 32 := 1#32
  let v517 : BitVec 32 := Scalar.muli v514 c1_i32_534
  let v518 : BitVec 32 := Scalar.addi v516 v517
  v518.toNat
def k0_dev40 (d0 : Dev nD) : Nat :=
  let c0_i32_560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_559 : BitVec 32 := 2#32
  let v545 : BitVec 32 := Scalar.muli v2 c2_i32_559
  let v546 : BitVec 32 := Scalar.addi c0_i32_560 v545
  let c1_i32_556 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v544 : BitVec 32 := Scalar.subi c1_i32_556 v5
  let c1_i32_561 : BitVec 32 := 1#32
  let v547 : BitVec 32 := Scalar.muli v544 c1_i32_561
  let v548 : BitVec 32 := Scalar.addi v546 v547
  v548.toNat
def k0_dev41 (d0 : Dev nD) : Nat :=
  let c0_i32_587 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_586 : BitVec 32 := 2#32
  let v575 : BitVec 32 := Scalar.muli v2 c2_i32_586
  let v576 : BitVec 32 := Scalar.addi c0_i32_587 v575
  let c1_i32_583 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v574 : BitVec 32 := Scalar.subi c1_i32_583 v5
  let c1_i32_588 : BitVec 32 := 1#32
  let v577 : BitVec 32 := Scalar.muli v574 c1_i32_588
  let v578 : BitVec 32 := Scalar.addi v576 v577
  v578.toNat
def k0_dev42 (d0 : Dev nD) : Nat :=
  let c0_i32_614 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_613 : BitVec 32 := 2#32
  let v605 : BitVec 32 := Scalar.muli v2 c2_i32_613
  let v606 : BitVec 32 := Scalar.addi c0_i32_614 v605
  let c1_i32_610 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v604 : BitVec 32 := Scalar.subi c1_i32_610 v5
  let c1_i32_615 : BitVec 32 := 1#32
  let v607 : BitVec 32 := Scalar.muli v604 c1_i32_615
  let v608 : BitVec 32 := Scalar.addi v606 v607
  v608.toNat
def k0_dev43 (d0 : Dev nD) : Nat :=
  let c0_i32_641 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_640 : BitVec 32 := 2#32
  let v635 : BitVec 32 := Scalar.muli v2 c2_i32_640
  let v636 : BitVec 32 := Scalar.addi c0_i32_641 v635
  let c1_i32_637 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v634 : BitVec 32 := Scalar.subi c1_i32_637 v5
  let c1_i32_642 : BitVec 32 := 1#32
  let v637 : BitVec 32 := Scalar.muli v634 c1_i32_642
  let v638 : BitVec 32 := Scalar.addi v636 v637
  v638.toNat
def k0_dev44 (d0 : Dev nD) : Nat :=
  let c0_i32_668 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_667 : BitVec 32 := 2#32
  let v665 : BitVec 32 := Scalar.muli v2 c2_i32_667
  let v666 : BitVec 32 := Scalar.addi c0_i32_668 v665
  let c1_i32_664 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v664 : BitVec 32 := Scalar.subi c1_i32_664 v5
  let c1_i32_669 : BitVec 32 := 1#32
  let v667 : BitVec 32 := Scalar.muli v664 c1_i32_669
  let v668 : BitVec 32 := Scalar.addi v666 v667
  v668.toNat
def k0_dev45 (d0 : Dev nD) : Nat :=
  let c0_i32_695 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_694 : BitVec 32 := 2#32
  let v695 : BitVec 32 := Scalar.muli v2 c2_i32_694
  let v696 : BitVec 32 := Scalar.addi c0_i32_695 v695
  let c1_i32_691 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v694 : BitVec 32 := Scalar.subi c1_i32_691 v5
  let c1_i32_696 : BitVec 32 := 1#32
  let v697 : BitVec 32 := Scalar.muli v694 c1_i32_696
  let v698 : BitVec 32 := Scalar.addi v696 v697
  v698.toNat
def k0_dev46 (d0 : Dev nD) : Nat :=
  let c0_i32_722 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_721 : BitVec 32 := 2#32
  let v725 : BitVec 32 := Scalar.muli v2 c2_i32_721
  let v726 : BitVec 32 := Scalar.addi c0_i32_722 v725
  let c1_i32_718 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v724 : BitVec 32 := Scalar.subi c1_i32_718 v5
  let c1_i32_723 : BitVec 32 := 1#32
  let v727 : BitVec 32 := Scalar.muli v724 c1_i32_723
  let v728 : BitVec 32 := Scalar.addi v726 v727
  v728.toNat
def k0_dev47 (d0 : Dev nD) : Nat :=
  let c0_i32_749 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_748 : BitVec 32 := 2#32
  let v755 : BitVec 32 := Scalar.muli v2 c2_i32_748
  let v756 : BitVec 32 := Scalar.addi c0_i32_749 v755
  let c1_i32_745 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v754 : BitVec 32 := Scalar.subi c1_i32_745 v5
  let c1_i32_750 : BitVec 32 := 1#32
  let v757 : BitVec 32 := Scalar.muli v754 c1_i32_750
  let v758 : BitVec 32 := Scalar.addi v756 v757
  v758.toNat
def k0_dev48 (d0 : Dev nD) : Nat :=
  let c0_i32_776 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_775 : BitVec 32 := 2#32
  let v785 : BitVec 32 := Scalar.muli v2 c2_i32_775
  let v786 : BitVec 32 := Scalar.addi c0_i32_776 v785
  let c1_i32_772 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v784 : BitVec 32 := Scalar.subi c1_i32_772 v5
  let c1_i32_777 : BitVec 32 := 1#32
  let v787 : BitVec 32 := Scalar.muli v784 c1_i32_777
  let v788 : BitVec 32 := Scalar.addi v786 v787
  v788.toNat
def k0_dev49 (d0 : Dev nD) : Nat :=
  let c0_i32_803 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_802 : BitVec 32 := 2#32
  let v815 : BitVec 32 := Scalar.muli v2 c2_i32_802
  let v816 : BitVec 32 := Scalar.addi c0_i32_803 v815
  let c1_i32_799 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v814 : BitVec 32 := Scalar.subi c1_i32_799 v5
  let c1_i32_804 : BitVec 32 := 1#32
  let v817 : BitVec 32 := Scalar.muli v814 c1_i32_804
  let v818 : BitVec 32 := Scalar.addi v816 v817
  v818.toNat
def k0_dev50 (d0 : Dev nD) : Nat :=
  let c0_i32_830 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_829 : BitVec 32 := 2#32
  let v845 : BitVec 32 := Scalar.muli v2 c2_i32_829
  let v846 : BitVec 32 := Scalar.addi c0_i32_830 v845
  let c1_i32_826 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v844 : BitVec 32 := Scalar.subi c1_i32_826 v5
  let c1_i32_831 : BitVec 32 := 1#32
  let v847 : BitVec 32 := Scalar.muli v844 c1_i32_831
  let v848 : BitVec 32 := Scalar.addi v846 v847
  v848.toNat
def k0_dev51 (d0 : Dev nD) : Nat :=
  let c0_i32_857 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_856 : BitVec 32 := 2#32
  let v875 : BitVec 32 := Scalar.muli v2 c2_i32_856
  let v876 : BitVec 32 := Scalar.addi c0_i32_857 v875
  let c1_i32_853 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v874 : BitVec 32 := Scalar.subi c1_i32_853 v5
  let c1_i32_858 : BitVec 32 := 1#32
  let v877 : BitVec 32 := Scalar.muli v874 c1_i32_858
  let v878 : BitVec 32 := Scalar.addi v876 v877
  v878.toNat
def k0_dev52 (d0 : Dev nD) : Nat :=
  let c0_i32_884 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_883 : BitVec 32 := 2#32
  let v905 : BitVec 32 := Scalar.muli v2 c2_i32_883
  let v906 : BitVec 32 := Scalar.addi c0_i32_884 v905
  let c1_i32_880 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v904 : BitVec 32 := Scalar.subi c1_i32_880 v5
  let c1_i32_885 : BitVec 32 := 1#32
  let v907 : BitVec 32 := Scalar.muli v904 c1_i32_885
  let v908 : BitVec 32 := Scalar.addi v906 v907
  v908.toNat
def k0_dev53 (d0 : Dev nD) : Nat :=
  let c0_i32_911 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_910 : BitVec 32 := 2#32
  let v935 : BitVec 32 := Scalar.muli v2 c2_i32_910
  let v936 : BitVec 32 := Scalar.addi c0_i32_911 v935
  let c1_i32_907 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v934 : BitVec 32 := Scalar.subi c1_i32_907 v5
  let c1_i32_912 : BitVec 32 := 1#32
  let v937 : BitVec 32 := Scalar.muli v934 c1_i32_912
  let v938 : BitVec 32 := Scalar.addi v936 v937
  v938.toNat
def k0_dev54 (d0 : Dev nD) : Nat :=
  let c0_i32_938 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_937 : BitVec 32 := 2#32
  let v965 : BitVec 32 := Scalar.muli v2 c2_i32_937
  let v966 : BitVec 32 := Scalar.addi c0_i32_938 v965
  let c1_i32_934 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v964 : BitVec 32 := Scalar.subi c1_i32_934 v5
  let c1_i32_939 : BitVec 32 := 1#32
  let v967 : BitVec 32 := Scalar.muli v964 c1_i32_939
  let v968 : BitVec 32 := Scalar.addi v966 v967
  v968.toNat
def k0_dev55 (d0 : Dev nD) : Nat :=
  let c0_i32_965 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_964 : BitVec 32 := 2#32
  let v995 : BitVec 32 := Scalar.muli v2 c2_i32_964
  let v996 : BitVec 32 := Scalar.addi c0_i32_965 v995
  let c1_i32_961 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v994 : BitVec 32 := Scalar.subi c1_i32_961 v5
  let c1_i32_966 : BitVec 32 := 1#32
  let v997 : BitVec 32 := Scalar.muli v994 c1_i32_966
  let v998 : BitVec 32 := Scalar.addi v996 v997
  v998.toNat
def k0_dev56 (d0 : Dev nD) : Nat :=
  let c0_i32_992 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_991 : BitVec 32 := 2#32
  let v1025 : BitVec 32 := Scalar.muli v2 c2_i32_991
  let v1026 : BitVec 32 := Scalar.addi c0_i32_992 v1025
  let c1_i32_988 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1024 : BitVec 32 := Scalar.subi c1_i32_988 v5
  let c1_i32_993 : BitVec 32 := 1#32
  let v1027 : BitVec 32 := Scalar.muli v1024 c1_i32_993
  let v1028 : BitVec 32 := Scalar.addi v1026 v1027
  v1028.toNat
def k0_dev57 (d0 : Dev nD) : Nat :=
  let c0_i32_1019 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1018 : BitVec 32 := 2#32
  let v1055 : BitVec 32 := Scalar.muli v2 c2_i32_1018
  let v1056 : BitVec 32 := Scalar.addi c0_i32_1019 v1055
  let c1_i32_1015 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1054 : BitVec 32 := Scalar.subi c1_i32_1015 v5
  let c1_i32_1020 : BitVec 32 := 1#32
  let v1057 : BitVec 32 := Scalar.muli v1054 c1_i32_1020
  let v1058 : BitVec 32 := Scalar.addi v1056 v1057
  v1058.toNat
def k0_dev58 (d0 : Dev nD) : Nat :=
  let c0_i32_1046 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1045 : BitVec 32 := 2#32
  let v1085 : BitVec 32 := Scalar.muli v2 c2_i32_1045
  let v1086 : BitVec 32 := Scalar.addi c0_i32_1046 v1085
  let c1_i32_1042 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1084 : BitVec 32 := Scalar.subi c1_i32_1042 v5
  let c1_i32_1047 : BitVec 32 := 1#32
  let v1087 : BitVec 32 := Scalar.muli v1084 c1_i32_1047
  let v1088 : BitVec 32 := Scalar.addi v1086 v1087
  v1088.toNat
def k0_dev59 (d0 : Dev nD) : Nat :=
  let c0_i32_1073 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1072 : BitVec 32 := 2#32
  let v1115 : BitVec 32 := Scalar.muli v2 c2_i32_1072
  let v1116 : BitVec 32 := Scalar.addi c0_i32_1073 v1115
  let c1_i32_1069 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1114 : BitVec 32 := Scalar.subi c1_i32_1069 v5
  let c1_i32_1074 : BitVec 32 := 1#32
  let v1117 : BitVec 32 := Scalar.muli v1114 c1_i32_1074
  let v1118 : BitVec 32 := Scalar.addi v1116 v1117
  v1118.toNat
def k0_dev60 (d0 : Dev nD) : Nat :=
  let c0_i32_1100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1099 : BitVec 32 := 2#32
  let v1145 : BitVec 32 := Scalar.muli v2 c2_i32_1099
  let v1146 : BitVec 32 := Scalar.addi c0_i32_1100 v1145
  let c1_i32_1096 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1144 : BitVec 32 := Scalar.subi c1_i32_1096 v5
  let c1_i32_1101 : BitVec 32 := 1#32
  let v1147 : BitVec 32 := Scalar.muli v1144 c1_i32_1101
  let v1148 : BitVec 32 := Scalar.addi v1146 v1147
  v1148.toNat
def k0_dev61 (d0 : Dev nD) : Nat :=
  let c0_i32_1127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1126 : BitVec 32 := 2#32
  let v1175 : BitVec 32 := Scalar.muli v2 c2_i32_1126
  let v1176 : BitVec 32 := Scalar.addi c0_i32_1127 v1175
  let c1_i32_1123 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1174 : BitVec 32 := Scalar.subi c1_i32_1123 v5
  let c1_i32_1128 : BitVec 32 := 1#32
  let v1177 : BitVec 32 := Scalar.muli v1174 c1_i32_1128
  let v1178 : BitVec 32 := Scalar.addi v1176 v1177
  v1178.toNat
def k0_dev62 (d0 : Dev nD) : Nat :=
  let c0_i32_1154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1153 : BitVec 32 := 2#32
  let v1205 : BitVec 32 := Scalar.muli v2 c2_i32_1153
  let v1206 : BitVec 32 := Scalar.addi c0_i32_1154 v1205
  let c1_i32_1150 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1204 : BitVec 32 := Scalar.subi c1_i32_1150 v5
  let c1_i32_1155 : BitVec 32 := 1#32
  let v1207 : BitVec 32 := Scalar.muli v1204 c1_i32_1155
  let v1208 : BitVec 32 := Scalar.addi v1206 v1207
  v1208.toNat
def k0_dev63 (d0 : Dev nD) : Nat :=
  let c0_i32_1181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1180 : BitVec 32 := 2#32
  let v1235 : BitVec 32 := Scalar.muli v2 c2_i32_1180
  let v1236 : BitVec 32 := Scalar.addi c0_i32_1181 v1235
  let c1_i32_1177 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1234 : BitVec 32 := Scalar.subi c1_i32_1177 v5
  let c1_i32_1182 : BitVec 32 := 1#32
  let v1237 : BitVec 32 := Scalar.muli v1234 c1_i32_1182
  let v1238 : BitVec 32 := Scalar.addi v1236 v1237
  v1238.toNat
def k0_dev64 (d0 : Dev nD) : Nat :=
  let c0_i32_1208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1207 : BitVec 32 := 2#32
  let v1265 : BitVec 32 := Scalar.muli v2 c2_i32_1207
  let v1266 : BitVec 32 := Scalar.addi c0_i32_1208 v1265
  let c1_i32_1204 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1264 : BitVec 32 := Scalar.subi c1_i32_1204 v5
  let c1_i32_1209 : BitVec 32 := 1#32
  let v1267 : BitVec 32 := Scalar.muli v1264 c1_i32_1209
  let v1268 : BitVec 32 := Scalar.addi v1266 v1267
  v1268.toNat
def k0_dev65 (d0 : Dev nD) : Nat :=
  let c0_i32_1235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1234 : BitVec 32 := 2#32
  let v1295 : BitVec 32 := Scalar.muli v2 c2_i32_1234
  let v1296 : BitVec 32 := Scalar.addi c0_i32_1235 v1295
  let c1_i32_1231 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1294 : BitVec 32 := Scalar.subi c1_i32_1231 v5
  let c1_i32_1236 : BitVec 32 := 1#32
  let v1297 : BitVec 32 := Scalar.muli v1294 c1_i32_1236
  let v1298 : BitVec 32 := Scalar.addi v1296 v1297
  v1298.toNat
def k0_dev66 (d0 : Dev nD) : Nat :=
  let c0_i32_1262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1261 : BitVec 32 := 2#32
  let v1325 : BitVec 32 := Scalar.muli v2 c2_i32_1261
  let v1326 : BitVec 32 := Scalar.addi c0_i32_1262 v1325
  let c1_i32_1258 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1324 : BitVec 32 := Scalar.subi c1_i32_1258 v5
  let c1_i32_1263 : BitVec 32 := 1#32
  let v1327 : BitVec 32 := Scalar.muli v1324 c1_i32_1263
  let v1328 : BitVec 32 := Scalar.addi v1326 v1327
  v1328.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_338 : BitVec 32 := 1#32
  let v372 : BitVec 1 := Scalar.cmpi .eq v5 c1_i32_338
  let v373 : BitVec 32 := Scalar.extui v372
  let c0_i32_403 : BitVec 32 := 0#32
  let v374 : BitVec 1 := Scalar.cmpi .ne v373 c0_i32_403
  v374

def k0_dev67 (d0 : Dev nD) : Nat :=
  let c0_i32_425 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_424 : BitVec 32 := 2#32
  let v395 : BitVec 32 := Scalar.muli v2 c2_i32_424
  let v396 : BitVec 32 := Scalar.addi c0_i32_425 v395
  let c1_i32_421 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v394 : BitVec 32 := Scalar.subi c1_i32_421 v5
  let c1_i32_426 : BitVec 32 := 1#32
  let v397 : BitVec 32 := Scalar.muli v394 c1_i32_426
  let v398 : BitVec 32 := Scalar.addi v396 v397
  v398.toNat
def k0_dev68 (d0 : Dev nD) : Nat :=
  let c0_i32_452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_451 : BitVec 32 := 2#32
  let v425 : BitVec 32 := Scalar.muli v2 c2_i32_451
  let v426 : BitVec 32 := Scalar.addi c0_i32_452 v425
  let c1_i32_448 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v424 : BitVec 32 := Scalar.subi c1_i32_448 v5
  let c1_i32_453 : BitVec 32 := 1#32
  let v427 : BitVec 32 := Scalar.muli v424 c1_i32_453
  let v428 : BitVec 32 := Scalar.addi v426 v427
  v428.toNat
def k0_dev69 (d0 : Dev nD) : Nat :=
  let c0_i32_479 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_478 : BitVec 32 := 2#32
  let v455 : BitVec 32 := Scalar.muli v2 c2_i32_478
  let v456 : BitVec 32 := Scalar.addi c0_i32_479 v455
  let c1_i32_475 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v454 : BitVec 32 := Scalar.subi c1_i32_475 v5
  let c1_i32_480 : BitVec 32 := 1#32
  let v457 : BitVec 32 := Scalar.muli v454 c1_i32_480
  let v458 : BitVec 32 := Scalar.addi v456 v457
  v458.toNat
def k0_dev70 (d0 : Dev nD) : Nat :=
  let c0_i32_506 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_505 : BitVec 32 := 2#32
  let v485 : BitVec 32 := Scalar.muli v2 c2_i32_505
  let v486 : BitVec 32 := Scalar.addi c0_i32_506 v485
  let c1_i32_502 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v484 : BitVec 32 := Scalar.subi c1_i32_502 v5
  let c1_i32_507 : BitVec 32 := 1#32
  let v487 : BitVec 32 := Scalar.muli v484 c1_i32_507
  let v488 : BitVec 32 := Scalar.addi v486 v487
  v488.toNat
def k0_dev71 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v515 : BitVec 32 := Scalar.muli v2 c2_i32_532
  let v516 : BitVec 32 := Scalar.addi c0_i32_533 v515
  let c1_i32_529 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v514 : BitVec 32 := Scalar.subi c1_i32_529 v5
  let c1_i32_534 : BitVec 32 := 1#32
  let v517 : BitVec 32 := Scalar.muli v514 c1_i32_534
  let v518 : BitVec 32 := Scalar.addi v516 v517
  v518.toNat
def k0_dev72 (d0 : Dev nD) : Nat :=
  let c0_i32_560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_559 : BitVec 32 := 2#32
  let v545 : BitVec 32 := Scalar.muli v2 c2_i32_559
  let v546 : BitVec 32 := Scalar.addi c0_i32_560 v545
  let c1_i32_556 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v544 : BitVec 32 := Scalar.subi c1_i32_556 v5
  let c1_i32_561 : BitVec 32 := 1#32
  let v547 : BitVec 32 := Scalar.muli v544 c1_i32_561
  let v548 : BitVec 32 := Scalar.addi v546 v547
  v548.toNat
def k0_dev73 (d0 : Dev nD) : Nat :=
  let c0_i32_587 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_586 : BitVec 32 := 2#32
  let v575 : BitVec 32 := Scalar.muli v2 c2_i32_586
  let v576 : BitVec 32 := Scalar.addi c0_i32_587 v575
  let c1_i32_583 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v574 : BitVec 32 := Scalar.subi c1_i32_583 v5
  let c1_i32_588 : BitVec 32 := 1#32
  let v577 : BitVec 32 := Scalar.muli v574 c1_i32_588
  let v578 : BitVec 32 := Scalar.addi v576 v577
  v578.toNat
def k0_dev74 (d0 : Dev nD) : Nat :=
  let c0_i32_614 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_613 : BitVec 32 := 2#32
  let v605 : BitVec 32 := Scalar.muli v2 c2_i32_613
  let v606 : BitVec 32 := Scalar.addi c0_i32_614 v605
  let c1_i32_610 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v604 : BitVec 32 := Scalar.subi c1_i32_610 v5
  let c1_i32_615 : BitVec 32 := 1#32
  let v607 : BitVec 32 := Scalar.muli v604 c1_i32_615
  let v608 : BitVec 32 := Scalar.addi v606 v607
  v608.toNat
def k0_dev75 (d0 : Dev nD) : Nat :=
  let c0_i32_641 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_640 : BitVec 32 := 2#32
  let v635 : BitVec 32 := Scalar.muli v2 c2_i32_640
  let v636 : BitVec 32 := Scalar.addi c0_i32_641 v635
  let c1_i32_637 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v634 : BitVec 32 := Scalar.subi c1_i32_637 v5
  let c1_i32_642 : BitVec 32 := 1#32
  let v637 : BitVec 32 := Scalar.muli v634 c1_i32_642
  let v638 : BitVec 32 := Scalar.addi v636 v637
  v638.toNat
def k0_dev76 (d0 : Dev nD) : Nat :=
  let c0_i32_668 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_667 : BitVec 32 := 2#32
  let v665 : BitVec 32 := Scalar.muli v2 c2_i32_667
  let v666 : BitVec 32 := Scalar.addi c0_i32_668 v665
  let c1_i32_664 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v664 : BitVec 32 := Scalar.subi c1_i32_664 v5
  let c1_i32_669 : BitVec 32 := 1#32
  let v667 : BitVec 32 := Scalar.muli v664 c1_i32_669
  let v668 : BitVec 32 := Scalar.addi v666 v667
  v668.toNat
def k0_dev77 (d0 : Dev nD) : Nat :=
  let c0_i32_695 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_694 : BitVec 32 := 2#32
  let v695 : BitVec 32 := Scalar.muli v2 c2_i32_694
  let v696 : BitVec 32 := Scalar.addi c0_i32_695 v695
  let c1_i32_691 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v694 : BitVec 32 := Scalar.subi c1_i32_691 v5
  let c1_i32_696 : BitVec 32 := 1#32
  let v697 : BitVec 32 := Scalar.muli v694 c1_i32_696
  let v698 : BitVec 32 := Scalar.addi v696 v697
  v698.toNat
def k0_dev78 (d0 : Dev nD) : Nat :=
  let c0_i32_722 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_721 : BitVec 32 := 2#32
  let v725 : BitVec 32 := Scalar.muli v2 c2_i32_721
  let v726 : BitVec 32 := Scalar.addi c0_i32_722 v725
  let c1_i32_718 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v724 : BitVec 32 := Scalar.subi c1_i32_718 v5
  let c1_i32_723 : BitVec 32 := 1#32
  let v727 : BitVec 32 := Scalar.muli v724 c1_i32_723
  let v728 : BitVec 32 := Scalar.addi v726 v727
  v728.toNat
def k0_dev79 (d0 : Dev nD) : Nat :=
  let c0_i32_749 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_748 : BitVec 32 := 2#32
  let v755 : BitVec 32 := Scalar.muli v2 c2_i32_748
  let v756 : BitVec 32 := Scalar.addi c0_i32_749 v755
  let c1_i32_745 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v754 : BitVec 32 := Scalar.subi c1_i32_745 v5
  let c1_i32_750 : BitVec 32 := 1#32
  let v757 : BitVec 32 := Scalar.muli v754 c1_i32_750
  let v758 : BitVec 32 := Scalar.addi v756 v757
  v758.toNat
def k0_dev80 (d0 : Dev nD) : Nat :=
  let c0_i32_776 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_775 : BitVec 32 := 2#32
  let v785 : BitVec 32 := Scalar.muli v2 c2_i32_775
  let v786 : BitVec 32 := Scalar.addi c0_i32_776 v785
  let c1_i32_772 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v784 : BitVec 32 := Scalar.subi c1_i32_772 v5
  let c1_i32_777 : BitVec 32 := 1#32
  let v787 : BitVec 32 := Scalar.muli v784 c1_i32_777
  let v788 : BitVec 32 := Scalar.addi v786 v787
  v788.toNat
def k0_dev81 (d0 : Dev nD) : Nat :=
  let c0_i32_803 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_802 : BitVec 32 := 2#32
  let v815 : BitVec 32 := Scalar.muli v2 c2_i32_802
  let v816 : BitVec 32 := Scalar.addi c0_i32_803 v815
  let c1_i32_799 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v814 : BitVec 32 := Scalar.subi c1_i32_799 v5
  let c1_i32_804 : BitVec 32 := 1#32
  let v817 : BitVec 32 := Scalar.muli v814 c1_i32_804
  let v818 : BitVec 32 := Scalar.addi v816 v817
  v818.toNat
def k0_dev82 (d0 : Dev nD) : Nat :=
  let c0_i32_830 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_829 : BitVec 32 := 2#32
  let v845 : BitVec 32 := Scalar.muli v2 c2_i32_829
  let v846 : BitVec 32 := Scalar.addi c0_i32_830 v845
  let c1_i32_826 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v844 : BitVec 32 := Scalar.subi c1_i32_826 v5
  let c1_i32_831 : BitVec 32 := 1#32
  let v847 : BitVec 32 := Scalar.muli v844 c1_i32_831
  let v848 : BitVec 32 := Scalar.addi v846 v847
  v848.toNat
def k0_dev83 (d0 : Dev nD) : Nat :=
  let c0_i32_857 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_856 : BitVec 32 := 2#32
  let v875 : BitVec 32 := Scalar.muli v2 c2_i32_856
  let v876 : BitVec 32 := Scalar.addi c0_i32_857 v875
  let c1_i32_853 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v874 : BitVec 32 := Scalar.subi c1_i32_853 v5
  let c1_i32_858 : BitVec 32 := 1#32
  let v877 : BitVec 32 := Scalar.muli v874 c1_i32_858
  let v878 : BitVec 32 := Scalar.addi v876 v877
  v878.toNat
def k0_dev84 (d0 : Dev nD) : Nat :=
  let c0_i32_884 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_883 : BitVec 32 := 2#32
  let v905 : BitVec 32 := Scalar.muli v2 c2_i32_883
  let v906 : BitVec 32 := Scalar.addi c0_i32_884 v905
  let c1_i32_880 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v904 : BitVec 32 := Scalar.subi c1_i32_880 v5
  let c1_i32_885 : BitVec 32 := 1#32
  let v907 : BitVec 32 := Scalar.muli v904 c1_i32_885
  let v908 : BitVec 32 := Scalar.addi v906 v907
  v908.toNat
def k0_dev85 (d0 : Dev nD) : Nat :=
  let c0_i32_911 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_910 : BitVec 32 := 2#32
  let v935 : BitVec 32 := Scalar.muli v2 c2_i32_910
  let v936 : BitVec 32 := Scalar.addi c0_i32_911 v935
  let c1_i32_907 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v934 : BitVec 32 := Scalar.subi c1_i32_907 v5
  let c1_i32_912 : BitVec 32 := 1#32
  let v937 : BitVec 32 := Scalar.muli v934 c1_i32_912
  let v938 : BitVec 32 := Scalar.addi v936 v937
  v938.toNat
def k0_dev86 (d0 : Dev nD) : Nat :=
  let c0_i32_938 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_937 : BitVec 32 := 2#32
  let v965 : BitVec 32 := Scalar.muli v2 c2_i32_937
  let v966 : BitVec 32 := Scalar.addi c0_i32_938 v965
  let c1_i32_934 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v964 : BitVec 32 := Scalar.subi c1_i32_934 v5
  let c1_i32_939 : BitVec 32 := 1#32
  let v967 : BitVec 32 := Scalar.muli v964 c1_i32_939
  let v968 : BitVec 32 := Scalar.addi v966 v967
  v968.toNat
def k0_dev87 (d0 : Dev nD) : Nat :=
  let c0_i32_965 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_964 : BitVec 32 := 2#32
  let v995 : BitVec 32 := Scalar.muli v2 c2_i32_964
  let v996 : BitVec 32 := Scalar.addi c0_i32_965 v995
  let c1_i32_961 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v994 : BitVec 32 := Scalar.subi c1_i32_961 v5
  let c1_i32_966 : BitVec 32 := 1#32
  let v997 : BitVec 32 := Scalar.muli v994 c1_i32_966
  let v998 : BitVec 32 := Scalar.addi v996 v997
  v998.toNat
def k0_dev88 (d0 : Dev nD) : Nat :=
  let c0_i32_992 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_991 : BitVec 32 := 2#32
  let v1025 : BitVec 32 := Scalar.muli v2 c2_i32_991
  let v1026 : BitVec 32 := Scalar.addi c0_i32_992 v1025
  let c1_i32_988 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1024 : BitVec 32 := Scalar.subi c1_i32_988 v5
  let c1_i32_993 : BitVec 32 := 1#32
  let v1027 : BitVec 32 := Scalar.muli v1024 c1_i32_993
  let v1028 : BitVec 32 := Scalar.addi v1026 v1027
  v1028.toNat
def k0_dev89 (d0 : Dev nD) : Nat :=
  let c0_i32_1019 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1018 : BitVec 32 := 2#32
  let v1055 : BitVec 32 := Scalar.muli v2 c2_i32_1018
  let v1056 : BitVec 32 := Scalar.addi c0_i32_1019 v1055
  let c1_i32_1015 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1054 : BitVec 32 := Scalar.subi c1_i32_1015 v5
  let c1_i32_1020 : BitVec 32 := 1#32
  let v1057 : BitVec 32 := Scalar.muli v1054 c1_i32_1020
  let v1058 : BitVec 32 := Scalar.addi v1056 v1057
  v1058.toNat
def k0_dev90 (d0 : Dev nD) : Nat :=
  let c0_i32_1046 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1045 : BitVec 32 := 2#32
  let v1085 : BitVec 32 := Scalar.muli v2 c2_i32_1045
  let v1086 : BitVec 32 := Scalar.addi c0_i32_1046 v1085
  let c1_i32_1042 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1084 : BitVec 32 := Scalar.subi c1_i32_1042 v5
  let c1_i32_1047 : BitVec 32 := 1#32
  let v1087 : BitVec 32 := Scalar.muli v1084 c1_i32_1047
  let v1088 : BitVec 32 := Scalar.addi v1086 v1087
  v1088.toNat
def k0_dev91 (d0 : Dev nD) : Nat :=
  let c0_i32_1073 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1072 : BitVec 32 := 2#32
  let v1115 : BitVec 32 := Scalar.muli v2 c2_i32_1072
  let v1116 : BitVec 32 := Scalar.addi c0_i32_1073 v1115
  let c1_i32_1069 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1114 : BitVec 32 := Scalar.subi c1_i32_1069 v5
  let c1_i32_1074 : BitVec 32 := 1#32
  let v1117 : BitVec 32 := Scalar.muli v1114 c1_i32_1074
  let v1118 : BitVec 32 := Scalar.addi v1116 v1117
  v1118.toNat
def k0_dev92 (d0 : Dev nD) : Nat :=
  let c0_i32_1100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1099 : BitVec 32 := 2#32
  let v1145 : BitVec 32 := Scalar.muli v2 c2_i32_1099
  let v1146 : BitVec 32 := Scalar.addi c0_i32_1100 v1145
  let c1_i32_1096 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1144 : BitVec 32 := Scalar.subi c1_i32_1096 v5
  let c1_i32_1101 : BitVec 32 := 1#32
  let v1147 : BitVec 32 := Scalar.muli v1144 c1_i32_1101
  let v1148 : BitVec 32 := Scalar.addi v1146 v1147
  v1148.toNat
def k0_dev93 (d0 : Dev nD) : Nat :=
  let c0_i32_1127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1126 : BitVec 32 := 2#32
  let v1175 : BitVec 32 := Scalar.muli v2 c2_i32_1126
  let v1176 : BitVec 32 := Scalar.addi c0_i32_1127 v1175
  let c1_i32_1123 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1174 : BitVec 32 := Scalar.subi c1_i32_1123 v5
  let c1_i32_1128 : BitVec 32 := 1#32
  let v1177 : BitVec 32 := Scalar.muli v1174 c1_i32_1128
  let v1178 : BitVec 32 := Scalar.addi v1176 v1177
  v1178.toNat
def k0_dev94 (d0 : Dev nD) : Nat :=
  let c0_i32_1154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1153 : BitVec 32 := 2#32
  let v1205 : BitVec 32 := Scalar.muli v2 c2_i32_1153
  let v1206 : BitVec 32 := Scalar.addi c0_i32_1154 v1205
  let c1_i32_1150 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1204 : BitVec 32 := Scalar.subi c1_i32_1150 v5
  let c1_i32_1155 : BitVec 32 := 1#32
  let v1207 : BitVec 32 := Scalar.muli v1204 c1_i32_1155
  let v1208 : BitVec 32 := Scalar.addi v1206 v1207
  v1208.toNat
def k0_dev95 (d0 : Dev nD) : Nat :=
  let c0_i32_1181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1180 : BitVec 32 := 2#32
  let v1235 : BitVec 32 := Scalar.muli v2 c2_i32_1180
  let v1236 : BitVec 32 := Scalar.addi c0_i32_1181 v1235
  let c1_i32_1177 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1234 : BitVec 32 := Scalar.subi c1_i32_1177 v5
  let c1_i32_1182 : BitVec 32 := 1#32
  let v1237 : BitVec 32 := Scalar.muli v1234 c1_i32_1182
  let v1238 : BitVec 32 := Scalar.addi v1236 v1237
  v1238.toNat
def k0_dev96 (d0 : Dev nD) : Nat :=
  let c0_i32_1208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1207 : BitVec 32 := 2#32
  let v1265 : BitVec 32 := Scalar.muli v2 c2_i32_1207
  let v1266 : BitVec 32 := Scalar.addi c0_i32_1208 v1265
  let c1_i32_1204 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1264 : BitVec 32 := Scalar.subi c1_i32_1204 v5
  let c1_i32_1209 : BitVec 32 := 1#32
  let v1267 : BitVec 32 := Scalar.muli v1264 c1_i32_1209
  let v1268 : BitVec 32 := Scalar.addi v1266 v1267
  v1268.toNat
def k0_dev97 (d0 : Dev nD) : Nat :=
  let c0_i32_1235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1234 : BitVec 32 := 2#32
  let v1295 : BitVec 32 := Scalar.muli v2 c2_i32_1234
  let v1296 : BitVec 32 := Scalar.addi c0_i32_1235 v1295
  let c1_i32_1231 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1294 : BitVec 32 := Scalar.subi c1_i32_1231 v5
  let c1_i32_1236 : BitVec 32 := 1#32
  let v1297 : BitVec 32 := Scalar.muli v1294 c1_i32_1236
  let v1298 : BitVec 32 := Scalar.addi v1296 v1297
  v1298.toNat
def k0_dev98 (d0 : Dev nD) : Nat :=
  let c0_i32_1262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1261 : BitVec 32 := 2#32
  let v1325 : BitVec 32 := Scalar.muli v2 c2_i32_1261
  let v1326 : BitVec 32 := Scalar.addi c0_i32_1262 v1325
  let c1_i32_1258 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1324 : BitVec 32 := Scalar.subi c1_i32_1258 v5
  let c1_i32_1263 : BitVec 32 := 1#32
  let v1327 : BitVec 32 := Scalar.muli v1324 c1_i32_1263
  let v1328 : BitVec 32 := Scalar.addi v1326 v1327
  v1328.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S2048x1024_S64x1024_0_0 : ∀ a, (![0, 0] : Fin 2 → Nat) a + S64x1024.size a ≤ S2048x1024.size a
  inb_S32_S1_1 : ∀ a, (![1] : Fin 1 → Nat) a + S1.size a ≤ S32.size a
  inb_S2048x1024_S64x1024_64_0 : ∀ a, (![64, 0] : Fin 2 → Nat) a + S64x1024.size a ≤ S2048x1024.size a
  inb_S32_S1_2 : ∀ a, (![2] : Fin 1 → Nat) a + S1.size a ≤ S32.size a
  inb_S2048x1024_S64x1024_128_0 : ∀ a, (![128, 0] : Fin 2 → Nat) a + S64x1024.size a ≤ S2048x1024.size a
  inb_S32_S1_3 : ∀ a, (![3] : Fin 1 → Nat) a + S1.size a ≤ S32.size a
  inb_S2048x1024_S64x1024_192_0 : ∀ a, (![192, 0] : Fin 2 → Nat) a + S64x1024.size a ≤ S2048x1024.size a
  inb_S32_S1_4 : ∀ a, (![4] : Fin 1 → Nat) a + S1.size a ≤ S32.size a
  inb_S2048x1024_S64x1024_256_0 : ∀ a, (![256, 0] : Fin 2 → Nat) a + S64x1024.size a ≤ S2048x1024.size a
  inb_S32_S1_5 : ∀ a, (![5] : Fin 1 → Nat) a + S1.size a ≤ S32.size a
  inb_S2048x1024_S64x1024_320_0 : ∀ a, (![320, 0] : Fin 2 → Nat) a + S64x1024.size a ≤ S2048x1024.size a
  inb_S32_S1_6 : ∀ a, (![6] : Fin 1 → Nat) a + S1.size a ≤ S32.size a
  inb_S2048x1024_S64x1024_384_0 : ∀ a, (![384, 0] : Fin 2 → Nat) a + S64x1024.size a ≤ S2048x1024.size a
  inb_S32_S1_7 : ∀ a, (![7] : Fin 1 → Nat) a + S1.size a ≤ S32.size a
  inb_S2048x1024_S64x1024_448_0 : ∀ a, (![448, 0] : Fin 2 → Nat) a + S64x1024.size a ≤ S2048x1024.size a
  inb_S32_S1_8 : ∀ a, (![8] : Fin 1 → Nat) a + S1.size a ≤ S32.size a
  inb_S2048x1024_S64x1024_512_0 : ∀ a, (![512, 0] : Fin 2 → Nat) a + S64x1024.size a ≤ S2048x1024.size a
  inb_S32_S1_9 : ∀ a, (![9] : Fin 1 → Nat) a + S1.size a ≤ S32.size a
  inb_S2048x1024_S64x1024_576_0 : ∀ a, (![576, 0] : Fin 2 → Nat) a + S64x1024.size a ≤ S2048x1024.size a
  inb_S32_S1_10 : ∀ a, (![10] : Fin 1 → Nat) a + S1.size a ≤ S32.size a
  inb_S2048x1024_S64x1024_640_0 : ∀ a, (![640, 0] : Fin 2 → Nat) a + S64x1024.size a ≤ S2048x1024.size a
  inb_S32_S1_11 : ∀ a, (![11] : Fin 1 → Nat) a + S1.size a ≤ S32.size a
  inb_S2048x1024_S64x1024_704_0 : ∀ a, (![704, 0] : Fin 2 → Nat) a + S64x1024.size a ≤ S2048x1024.size a
  inb_S32_S1_12 : ∀ a, (![12] : Fin 1 → Nat) a + S1.size a ≤ S32.size a
  inb_S2048x1024_S64x1024_768_0 : ∀ a, (![768, 0] : Fin 2 → Nat) a + S64x1024.size a ≤ S2048x1024.size a
  inb_S32_S1_13 : ∀ a, (![13] : Fin 1 → Nat) a + S1.size a ≤ S32.size a
  inb_S2048x1024_S64x1024_832_0 : ∀ a, (![832, 0] : Fin 2 → Nat) a + S64x1024.size a ≤ S2048x1024.size a
  inb_S32_S1_14 : ∀ a, (![14] : Fin 1 → Nat) a + S1.size a ≤ S32.size a
  inb_S2048x1024_S64x1024_896_0 : ∀ a, (![896, 0] : Fin 2 → Nat) a + S64x1024.size a ≤ S2048x1024.size a
  inb_S32_S1_15 : ∀ a, (![15] : Fin 1 → Nat) a + S1.size a ≤ S32.size a
  inb_S2048x1024_S64x1024_960_0 : ∀ a, (![960, 0] : Fin 2 → Nat) a + S64x1024.size a ≤ S2048x1024.size a
  inb_S32_S1_16 : ∀ a, (![16] : Fin 1 → Nat) a + S1.size a ≤ S32.size a
  inb_S2048x1024_S64x1024_1024_0 : ∀ a, (![1024, 0] : Fin 2 → Nat) a + S64x1024.size a ≤ S2048x1024.size a
  inb_S32_S1_17 : ∀ a, (![17] : Fin 1 → Nat) a + S1.size a ≤ S32.size a
  inb_S2048x1024_S64x1024_1088_0 : ∀ a, (![1088, 0] : Fin 2 → Nat) a + S64x1024.size a ≤ S2048x1024.size a
  inb_S32_S1_18 : ∀ a, (![18] : Fin 1 → Nat) a + S1.size a ≤ S32.size a
  inb_S2048x1024_S64x1024_1152_0 : ∀ a, (![1152, 0] : Fin 2 → Nat) a + S64x1024.size a ≤ S2048x1024.size a
  inb_S32_S1_19 : ∀ a, (![19] : Fin 1 → Nat) a + S1.size a ≤ S32.size a
  inb_S2048x1024_S64x1024_1216_0 : ∀ a, (![1216, 0] : Fin 2 → Nat) a + S64x1024.size a ≤ S2048x1024.size a
  inb_S32_S1_20 : ∀ a, (![20] : Fin 1 → Nat) a + S1.size a ≤ S32.size a
  inb_S2048x1024_S64x1024_1280_0 : ∀ a, (![1280, 0] : Fin 2 → Nat) a + S64x1024.size a ≤ S2048x1024.size a
  inb_S32_S1_21 : ∀ a, (![21] : Fin 1 → Nat) a + S1.size a ≤ S32.size a
  inb_S2048x1024_S64x1024_1344_0 : ∀ a, (![1344, 0] : Fin 2 → Nat) a + S64x1024.size a ≤ S2048x1024.size a
  inb_S32_S1_22 : ∀ a, (![22] : Fin 1 → Nat) a + S1.size a ≤ S32.size a
  inb_S2048x1024_S64x1024_1408_0 : ∀ a, (![1408, 0] : Fin 2 → Nat) a + S64x1024.size a ≤ S2048x1024.size a
  inb_S32_S1_23 : ∀ a, (![23] : Fin 1 → Nat) a + S1.size a ≤ S32.size a
  inb_S2048x1024_S64x1024_1472_0 : ∀ a, (![1472, 0] : Fin 2 → Nat) a + S64x1024.size a ≤ S2048x1024.size a
  inb_S32_S1_24 : ∀ a, (![24] : Fin 1 → Nat) a + S1.size a ≤ S32.size a
  inb_S2048x1024_S64x1024_1536_0 : ∀ a, (![1536, 0] : Fin 2 → Nat) a + S64x1024.size a ≤ S2048x1024.size a
  inb_S32_S1_25 : ∀ a, (![25] : Fin 1 → Nat) a + S1.size a ≤ S32.size a
  inb_S2048x1024_S64x1024_1600_0 : ∀ a, (![1600, 0] : Fin 2 → Nat) a + S64x1024.size a ≤ S2048x1024.size a
  inb_S32_S1_26 : ∀ a, (![26] : Fin 1 → Nat) a + S1.size a ≤ S32.size a
  inb_S2048x1024_S64x1024_1664_0 : ∀ a, (![1664, 0] : Fin 2 → Nat) a + S64x1024.size a ≤ S2048x1024.size a
  inb_S32_S1_27 : ∀ a, (![27] : Fin 1 → Nat) a + S1.size a ≤ S32.size a
  inb_S2048x1024_S64x1024_1728_0 : ∀ a, (![1728, 0] : Fin 2 → Nat) a + S64x1024.size a ≤ S2048x1024.size a
  inb_S32_S1_28 : ∀ a, (![28] : Fin 1 → Nat) a + S1.size a ≤ S32.size a
  inb_S2048x1024_S64x1024_1792_0 : ∀ a, (![1792, 0] : Fin 2 → Nat) a + S64x1024.size a ≤ S2048x1024.size a
  inb_S32_S1_29 : ∀ a, (![29] : Fin 1 → Nat) a + S1.size a ≤ S32.size a
  inb_S2048x1024_S64x1024_1856_0 : ∀ a, (![1856, 0] : Fin 2 → Nat) a + S64x1024.size a ≤ S2048x1024.size a
  inb_S32_S1_30 : ∀ a, (![30] : Fin 1 → Nat) a + S1.size a ≤ S32.size a
  inb_S2048x1024_S64x1024_1920_0 : ∀ a, (![1920, 0] : Fin 2 → Nat) a + S64x1024.size a ≤ S2048x1024.size a
  inb_S32_S1_31 : ∀ a, (![31] : Fin 1 → Nat) a + S1.size a ≤ S32.size a
  inb_S2048x1024_S64x1024_1984_0 : ∀ a, (![1984, 0] : Fin 2 → Nat) a + S64x1024.size a ≤ S2048x1024.size a
  h_S64x1024 : 0 < S64x1024.numel
  shapeCasts_S64x1024_S64x1024 : S64x1024.ShapeCasts S64x1024
  inb_S2048x2048_S64x1024_0_0 : ∀ a, (![0, 0] : Fin 2 → Nat) a + S64x1024.size a ≤ S2048x2048.size a
  inb_S2048x2048_S64x1024_64_0 : ∀ a, (![64, 0] : Fin 2 → Nat) a + S64x1024.size a ≤ S2048x2048.size a
  inb_S2048x2048_S64x1024_128_0 : ∀ a, (![128, 0] : Fin 2 → Nat) a + S64x1024.size a ≤ S2048x2048.size a
  inb_S2048x2048_S64x1024_192_0 : ∀ a, (![192, 0] : Fin 2 → Nat) a + S64x1024.size a ≤ S2048x2048.size a
  inb_S2048x2048_S64x1024_256_0 : ∀ a, (![256, 0] : Fin 2 → Nat) a + S64x1024.size a ≤ S2048x2048.size a
  inb_S2048x2048_S64x1024_320_0 : ∀ a, (![320, 0] : Fin 2 → Nat) a + S64x1024.size a ≤ S2048x2048.size a
  inb_S2048x2048_S64x1024_384_0 : ∀ a, (![384, 0] : Fin 2 → Nat) a + S64x1024.size a ≤ S2048x2048.size a
  inb_S2048x2048_S64x1024_448_0 : ∀ a, (![448, 0] : Fin 2 → Nat) a + S64x1024.size a ≤ S2048x2048.size a
  inb_S2048x2048_S64x1024_512_0 : ∀ a, (![512, 0] : Fin 2 → Nat) a + S64x1024.size a ≤ S2048x2048.size a
  inb_S2048x2048_S64x1024_576_0 : ∀ a, (![576, 0] : Fin 2 → Nat) a + S64x1024.size a ≤ S2048x2048.size a
  inb_S2048x2048_S64x1024_640_0 : ∀ a, (![640, 0] : Fin 2 → Nat) a + S64x1024.size a ≤ S2048x2048.size a
  inb_S2048x2048_S64x1024_704_0 : ∀ a, (![704, 0] : Fin 2 → Nat) a + S64x1024.size a ≤ S2048x2048.size a
  inb_S2048x2048_S64x1024_768_0 : ∀ a, (![768, 0] : Fin 2 → Nat) a + S64x1024.size a ≤ S2048x2048.size a
  inb_S2048x2048_S64x1024_832_0 : ∀ a, (![832, 0] : Fin 2 → Nat) a + S64x1024.size a ≤ S2048x2048.size a
  inb_S2048x2048_S64x1024_896_0 : ∀ a, (![896, 0] : Fin 2 → Nat) a + S64x1024.size a ≤ S2048x2048.size a
  inb_S2048x2048_S64x1024_960_0 : ∀ a, (![960, 0] : Fin 2 → Nat) a + S64x1024.size a ≤ S2048x2048.size a
  inb_S2048x2048_S64x1024_1024_0 : ∀ a, (![1024, 0] : Fin 2 → Nat) a + S64x1024.size a ≤ S2048x2048.size a
  inb_S2048x2048_S64x1024_1088_0 : ∀ a, (![1088, 0] : Fin 2 → Nat) a + S64x1024.size a ≤ S2048x2048.size a
  inb_S2048x2048_S64x1024_1152_0 : ∀ a, (![1152, 0] : Fin 2 → Nat) a + S64x1024.size a ≤ S2048x2048.size a
  inb_S2048x2048_S64x1024_1216_0 : ∀ a, (![1216, 0] : Fin 2 → Nat) a + S64x1024.size a ≤ S2048x2048.size a
  inb_S2048x2048_S64x1024_1280_0 : ∀ a, (![1280, 0] : Fin 2 → Nat) a + S64x1024.size a ≤ S2048x2048.size a
  inb_S2048x2048_S64x1024_1344_0 : ∀ a, (![1344, 0] : Fin 2 → Nat) a + S64x1024.size a ≤ S2048x2048.size a
  inb_S2048x2048_S64x1024_1408_0 : ∀ a, (![1408, 0] : Fin 2 → Nat) a + S64x1024.size a ≤ S2048x2048.size a
  inb_S2048x2048_S64x1024_1472_0 : ∀ a, (![1472, 0] : Fin 2 → Nat) a + S64x1024.size a ≤ S2048x2048.size a
  inb_S2048x2048_S64x1024_1536_0 : ∀ a, (![1536, 0] : Fin 2 → Nat) a + S64x1024.size a ≤ S2048x2048.size a
  inb_S2048x2048_S64x1024_1600_0 : ∀ a, (![1600, 0] : Fin 2 → Nat) a + S64x1024.size a ≤ S2048x2048.size a
  inb_S2048x2048_S64x1024_1664_0 : ∀ a, (![1664, 0] : Fin 2 → Nat) a + S64x1024.size a ≤ S2048x2048.size a
  inb_S2048x2048_S64x1024_1728_0 : ∀ a, (![1728, 0] : Fin 2 → Nat) a + S64x1024.size a ≤ S2048x2048.size a
  inb_S2048x2048_S64x1024_1792_0 : ∀ a, (![1792, 0] : Fin 2 → Nat) a + S64x1024.size a ≤ S2048x2048.size a
  inb_S2048x2048_S64x1024_1856_0 : ∀ a, (![1856, 0] : Fin 2 → Nat) a + S64x1024.size a ≤ S2048x2048.size a
  inb_S2048x2048_S64x1024_1920_0 : ∀ a, (![1920, 0] : Fin 2 → Nat) a + S64x1024.size a ≤ S2048x2048.size a
  inb_S2048x2048_S64x1024_1984_0 : ∀ a, (![1984, 0] : Fin 2 → Nat) a + S64x1024.size a ≤ S2048x2048.size a
  inb_S2048x2048_S64x1024_0_1024 : ∀ a, (![0, 1024] : Fin 2 → Nat) a + S64x1024.size a ≤ S2048x2048.size a
  inb_S2048x2048_S64x1024_64_1024 : ∀ a, (![64, 1024] : Fin 2 → Nat) a + S64x1024.size a ≤ S2048x2048.size a
  inb_S2048x2048_S64x1024_128_1024 : ∀ a, (![128, 1024] : Fin 2 → Nat) a + S64x1024.size a ≤ S2048x2048.size a
  inb_S2048x2048_S64x1024_192_1024 : ∀ a, (![192, 1024] : Fin 2 → Nat) a + S64x1024.size a ≤ S2048x2048.size a
  inb_S2048x2048_S64x1024_256_1024 : ∀ a, (![256, 1024] : Fin 2 → Nat) a + S64x1024.size a ≤ S2048x2048.size a
  inb_S2048x2048_S64x1024_320_1024 : ∀ a, (![320, 1024] : Fin 2 → Nat) a + S64x1024.size a ≤ S2048x2048.size a
  inb_S2048x2048_S64x1024_384_1024 : ∀ a, (![384, 1024] : Fin 2 → Nat) a + S64x1024.size a ≤ S2048x2048.size a
  inb_S2048x2048_S64x1024_448_1024 : ∀ a, (![448, 1024] : Fin 2 → Nat) a + S64x1024.size a ≤ S2048x2048.size a
  inb_S2048x2048_S64x1024_512_1024 : ∀ a, (![512, 1024] : Fin 2 → Nat) a + S64x1024.size a ≤ S2048x2048.size a
  inb_S2048x2048_S64x1024_576_1024 : ∀ a, (![576, 1024] : Fin 2 → Nat) a + S64x1024.size a ≤ S2048x2048.size a
  inb_S2048x2048_S64x1024_640_1024 : ∀ a, (![640, 1024] : Fin 2 → Nat) a + S64x1024.size a ≤ S2048x2048.size a
  inb_S2048x2048_S64x1024_704_1024 : ∀ a, (![704, 1024] : Fin 2 → Nat) a + S64x1024.size a ≤ S2048x2048.size a
  inb_S2048x2048_S64x1024_768_1024 : ∀ a, (![768, 1024] : Fin 2 → Nat) a + S64x1024.size a ≤ S2048x2048.size a
  inb_S2048x2048_S64x1024_832_1024 : ∀ a, (![832, 1024] : Fin 2 → Nat) a + S64x1024.size a ≤ S2048x2048.size a
  inb_S2048x2048_S64x1024_896_1024 : ∀ a, (![896, 1024] : Fin 2 → Nat) a + S64x1024.size a ≤ S2048x2048.size a
  inb_S2048x2048_S64x1024_960_1024 : ∀ a, (![960, 1024] : Fin 2 → Nat) a + S64x1024.size a ≤ S2048x2048.size a
  inb_S2048x2048_S64x1024_1024_1024 : ∀ a, (![1024, 1024] : Fin 2 → Nat) a + S64x1024.size a ≤ S2048x2048.size a
  inb_S2048x2048_S64x1024_1088_1024 : ∀ a, (![1088, 1024] : Fin 2 → Nat) a + S64x1024.size a ≤ S2048x2048.size a
  inb_S2048x2048_S64x1024_1152_1024 : ∀ a, (![1152, 1024] : Fin 2 → Nat) a + S64x1024.size a ≤ S2048x2048.size a
  inb_S2048x2048_S64x1024_1216_1024 : ∀ a, (![1216, 1024] : Fin 2 → Nat) a + S64x1024.size a ≤ S2048x2048.size a
  inb_S2048x2048_S64x1024_1280_1024 : ∀ a, (![1280, 1024] : Fin 2 → Nat) a + S64x1024.size a ≤ S2048x2048.size a
  inb_S2048x2048_S64x1024_1344_1024 : ∀ a, (![1344, 1024] : Fin 2 → Nat) a + S64x1024.size a ≤ S2048x2048.size a
  inb_S2048x2048_S64x1024_1408_1024 : ∀ a, (![1408, 1024] : Fin 2 → Nat) a + S64x1024.size a ≤ S2048x2048.size a
  inb_S2048x2048_S64x1024_1472_1024 : ∀ a, (![1472, 1024] : Fin 2 → Nat) a + S64x1024.size a ≤ S2048x2048.size a
  inb_S2048x2048_S64x1024_1536_1024 : ∀ a, (![1536, 1024] : Fin 2 → Nat) a + S64x1024.size a ≤ S2048x2048.size a
  inb_S2048x2048_S64x1024_1600_1024 : ∀ a, (![1600, 1024] : Fin 2 → Nat) a + S64x1024.size a ≤ S2048x2048.size a
  inb_S2048x2048_S64x1024_1664_1024 : ∀ a, (![1664, 1024] : Fin 2 → Nat) a + S64x1024.size a ≤ S2048x2048.size a
  inb_S2048x2048_S64x1024_1728_1024 : ∀ a, (![1728, 1024] : Fin 2 → Nat) a + S64x1024.size a ≤ S2048x2048.size a
  inb_S2048x2048_S64x1024_1792_1024 : ∀ a, (![1792, 1024] : Fin 2 → Nat) a + S64x1024.size a ≤ S2048x2048.size a
  inb_S2048x2048_S64x1024_1856_1024 : ∀ a, (![1856, 1024] : Fin 2 → Nat) a + S64x1024.size a ≤ S2048x2048.size a
  inb_S2048x2048_S64x1024_1920_1024 : ∀ a, (![1920, 1024] : Fin 2 → Nat) a + S64x1024.size a ≤ S2048x2048.size a
  inb_S2048x2048_S64x1024_1984_1024 : ∀ a, (![1984, 1024] : Fin 2 → Nat) a + S64x1024.size a ≤ S2048x2048.size a
  hcc0_scratch2 : 1 + S32.numel ≤ 161
  hcc0_scratch3 : 33 + S32.numel ≤ 161
  hcc0_scratch4 : 65 + S32.numel ≤ 161
  hcc0_scratch5 : 97 + S32.numel ≤ 161
  hcc0_scratch6 : 129 + S32.numel ≤ 161
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, ∀ (k0_h1 : k0_cond1 d0 = 1#1), (k0_dev35 d0) < nD
  k0_dev36_lt : ∀ d0 : Dev nD, ∀ (k0_h1 : k0_cond1 d0 = 1#1), (k0_dev36 d0) < nD
  k0_dev37_lt : ∀ d0 : Dev nD, ∀ (k0_h1 : k0_cond1 d0 = 1#1), (k0_dev37 d0) < nD
  k0_dev38_lt : ∀ d0 : Dev nD, ∀ (k0_h1 : k0_cond1 d0 = 1#1), (k0_dev38 d0) < nD
  k0_dev39_lt : ∀ d0 : Dev nD, ∀ (k0_h1 : k0_cond1 d0 = 1#1), (k0_dev39 d0) < nD
  k0_dev40_lt : ∀ d0 : Dev nD, ∀ (k0_h1 : k0_cond1 d0 = 1#1), (k0_dev40 d0) < nD
  k0_dev41_lt : ∀ d0 : Dev nD, ∀ (k0_h1 : k0_cond1 d0 = 1#1), (k0_dev41 d0) < nD
  k0_dev42_lt : ∀ d0 : Dev nD, ∀ (k0_h1 : k0_cond1 d0 = 1#1), (k0_dev42 d0) < nD
  k0_dev43_lt : ∀ d0 : Dev nD, ∀ (k0_h1 : k0_cond1 d0 = 1#1), (k0_dev43 d0) < nD
  k0_dev44_lt : ∀ d0 : Dev nD, ∀ (k0_h1 : k0_cond1 d0 = 1#1), (k0_dev44 d0) < nD
  k0_dev45_lt : ∀ d0 : Dev nD, ∀ (k0_h1 : k0_cond1 d0 = 1#1), (k0_dev45 d0) < nD
  k0_dev46_lt : ∀ d0 : Dev nD, ∀ (k0_h1 : k0_cond1 d0 = 1#1), (k0_dev46 d0) < nD
  k0_dev47_lt : ∀ d0 : Dev nD, ∀ (k0_h1 : k0_cond1 d0 = 1#1), (k0_dev47 d0) < nD
  k0_dev48_lt : ∀ d0 : Dev nD, ∀ (k0_h1 : k0_cond1 d0 = 1#1), (k0_dev48 d0) < nD
  k0_dev49_lt : ∀ d0 : Dev nD, ∀ (k0_h1 : k0_cond1 d0 = 1#1), (k0_dev49 d0) < nD
  k0_dev50_lt : ∀ d0 : Dev nD, ∀ (k0_h1 : k0_cond1 d0 = 1#1), (k0_dev50 d0) < nD
  k0_dev51_lt : ∀ d0 : Dev nD, ∀ (k0_h1 : k0_cond1 d0 = 1#1), (k0_dev51 d0) < nD
  k0_dev52_lt : ∀ d0 : Dev nD, ∀ (k0_h1 : k0_cond1 d0 = 1#1), (k0_dev52 d0) < nD
  k0_dev53_lt : ∀ d0 : Dev nD, ∀ (k0_h1 : k0_cond1 d0 = 1#1), (k0_dev53 d0) < nD
  k0_dev54_lt : ∀ d0 : Dev nD, ∀ (k0_h1 : k0_cond1 d0 = 1#1), (k0_dev54 d0) < nD
  k0_dev55_lt : ∀ d0 : Dev nD, ∀ (k0_h1 : k0_cond1 d0 = 1#1), (k0_dev55 d0) < nD
  k0_dev56_lt : ∀ d0 : Dev nD, ∀ (k0_h1 : k0_cond1 d0 = 1#1), (k0_dev56 d0) < nD
  k0_dev57_lt : ∀ d0 : Dev nD, ∀ (k0_h1 : k0_cond1 d0 = 1#1), (k0_dev57 d0) < nD
  k0_dev58_lt : ∀ d0 : Dev nD, ∀ (k0_h1 : k0_cond1 d0 = 1#1), (k0_dev58 d0) < nD
  k0_dev59_lt : ∀ d0 : Dev nD, ∀ (k0_h1 : k0_cond1 d0 = 1#1), (k0_dev59 d0) < nD
  k0_dev60_lt : ∀ d0 : Dev nD, ∀ (k0_h1 : k0_cond1 d0 = 1#1), (k0_dev60 d0) < nD
  k0_dev61_lt : ∀ d0 : Dev nD, ∀ (k0_h1 : k0_cond1 d0 = 1#1), (k0_dev61 d0) < nD
  k0_dev62_lt : ∀ d0 : Dev nD, ∀ (k0_h1 : k0_cond1 d0 = 1#1), (k0_dev62 d0) < nD
  k0_dev63_lt : ∀ d0 : Dev nD, ∀ (k0_h1 : k0_cond1 d0 = 1#1), (k0_dev63 d0) < nD
  k0_dev64_lt : ∀ d0 : Dev nD, ∀ (k0_h1 : k0_cond1 d0 = 1#1), (k0_dev64 d0) < nD
  k0_dev65_lt : ∀ d0 : Dev nD, ∀ (k0_h1 : k0_cond1 d0 = 1#1), (k0_dev65 d0) < nD
  k0_dev66_lt : ∀ d0 : Dev nD, ∀ (k0_h1 : k0_cond1 d0 = 1#1), (k0_dev66 d0) < nD
  k0_dev67_lt : ∀ d0 : Dev nD, ∀ (k0_h2 : k0_cond2 d0 = 1#1), (k0_dev67 d0) < nD
  k0_dev68_lt : ∀ d0 : Dev nD, ∀ (k0_h2 : k0_cond2 d0 = 1#1), (k0_dev68 d0) < nD
  k0_dev69_lt : ∀ d0 : Dev nD, ∀ (k0_h2 : k0_cond2 d0 = 1#1), (k0_dev69 d0) < nD
  k0_dev70_lt : ∀ d0 : Dev nD, ∀ (k0_h2 : k0_cond2 d0 = 1#1), (k0_dev70 d0) < nD
  k0_dev71_lt : ∀ d0 : Dev nD, ∀ (k0_h2 : k0_cond2 d0 = 1#1), (k0_dev71 d0) < nD
  k0_dev72_lt : ∀ d0 : Dev nD, ∀ (k0_h2 : k0_cond2 d0 = 1#1), (k0_dev72 d0) < nD
  k0_dev73_lt : ∀ d0 : Dev nD, ∀ (k0_h2 : k0_cond2 d0 = 1#1), (k0_dev73 d0) < nD
  k0_dev74_lt : ∀ d0 : Dev nD, ∀ (k0_h2 : k0_cond2 d0 = 1#1), (k0_dev74 d0) < nD
  k0_dev75_lt : ∀ d0 : Dev nD, ∀ (k0_h2 : k0_cond2 d0 = 1#1), (k0_dev75 d0) < nD
  k0_dev76_lt : ∀ d0 : Dev nD, ∀ (k0_h2 : k0_cond2 d0 = 1#1), (k0_dev76 d0) < nD
  k0_dev77_lt : ∀ d0 : Dev nD, ∀ (k0_h2 : k0_cond2 d0 = 1#1), (k0_dev77 d0) < nD
  k0_dev78_lt : ∀ d0 : Dev nD, ∀ (k0_h2 : k0_cond2 d0 = 1#1), (k0_dev78 d0) < nD
  k0_dev79_lt : ∀ d0 : Dev nD, ∀ (k0_h2 : k0_cond2 d0 = 1#1), (k0_dev79 d0) < nD
  k0_dev80_lt : ∀ d0 : Dev nD, ∀ (k0_h2 : k0_cond2 d0 = 1#1), (k0_dev80 d0) < nD
  k0_dev81_lt : ∀ d0 : Dev nD, ∀ (k0_h2 : k0_cond2 d0 = 1#1), (k0_dev81 d0) < nD
  k0_dev82_lt : ∀ d0 : Dev nD, ∀ (k0_h2 : k0_cond2 d0 = 1#1), (k0_dev82 d0) < nD
  k0_dev83_lt : ∀ d0 : Dev nD, ∀ (k0_h2 : k0_cond2 d0 = 1#1), (k0_dev83 d0) < nD
  k0_dev84_lt : ∀ d0 : Dev nD, ∀ (k0_h2 : k0_cond2 d0 = 1#1), (k0_dev84 d0) < nD
  k0_dev85_lt : ∀ d0 : Dev nD, ∀ (k0_h2 : k0_cond2 d0 = 1#1), (k0_dev85 d0) < nD
  k0_dev86_lt : ∀ d0 : Dev nD, ∀ (k0_h2 : k0_cond2 d0 = 1#1), (k0_dev86 d0) < nD
  k0_dev87_lt : ∀ d0 : Dev nD, ∀ (k0_h2 : k0_cond2 d0 = 1#1), (k0_dev87 d0) < nD
  k0_dev88_lt : ∀ d0 : Dev nD, ∀ (k0_h2 : k0_cond2 d0 = 1#1), (k0_dev88 d0) < nD
  k0_dev89_lt : ∀ d0 : Dev nD, ∀ (k0_h2 : k0_cond2 d0 = 1#1), (k0_dev89 d0) < nD
  k0_dev90_lt : ∀ d0 : Dev nD, ∀ (k0_h2 : k0_cond2 d0 = 1#1), (k0_dev90 d0) < nD
  k0_dev91_lt : ∀ d0 : Dev nD, ∀ (k0_h2 : k0_cond2 d0 = 1#1), (k0_dev91 d0) < nD
  k0_dev92_lt : ∀ d0 : Dev nD, ∀ (k0_h2 : k0_cond2 d0 = 1#1), (k0_dev92 d0) < nD
  k0_dev93_lt : ∀ d0 : Dev nD, ∀ (k0_h2 : k0_cond2 d0 = 1#1), (k0_dev93 d0) < nD
  k0_dev94_lt : ∀ d0 : Dev nD, ∀ (k0_h2 : k0_cond2 d0 = 1#1), (k0_dev94 d0) < nD
  k0_dev95_lt : ∀ d0 : Dev nD, ∀ (k0_h2 : k0_cond2 d0 = 1#1), (k0_dev95 d0) < nD
  k0_dev96_lt : ∀ d0 : Dev nD, ∀ (k0_h2 : k0_cond2 d0 = 1#1), (k0_dev96 d0) < nD
  k0_dev97_lt : ∀ d0 : Dev nD, ∀ (k0_h2 : k0_cond2 d0 = 1#1), (k0_dev97 d0) < nD
  k0_dev98_lt : ∀ d0 : Dev nD, ∀ (k0_h2 : k0_cond2 d0 = 1#1), (k0_dev98 d0) < nD
  hstage0_0 : ∀ j, (stage0_0 j).IsWhole

variable [Facts₀]

abbrev cc0_scratch2 : DmaSems sig S32 := SemArray.consecutive 1 S32 hcc0_scratch2
abbrev cc0_scratch3 : DmaSems sig S32 := SemArray.consecutive 33 S32 hcc0_scratch3
abbrev cc0_scratch4 : DmaSems sig S32 := SemArray.consecutive 65 S32 hcc0_scratch4
abbrev cc0_scratch5 : DmaSems sig S32 := SemArray.consecutive 97 S32 hcc0_scratch5
abbrev cc0_scratch6 : DmaSems sig S32 := SemArray.consecutive 129 S32 hcc0_scratch6

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2x2048x2048 : Shape := ⟨3, ![2, 2048, 2048]⟩
abbrev S_ : Shape := ⟨0, ![]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048x2048, .f32⟩
  | .hbm, ⟨2, _⟩ => ⟨S_, .f32⟩
  | .hbm, ⟨3, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x2048_S2x2048x2048 : S4096x2048.ShapeCasts S2x2048x2048
  reducesTo_S2x2048x2048_S2048x2048_d0 : S2x2048x2048.ReducesTo [0] S2048x2048
  h_S_ : 0 < S_.numel

variable [Facts₀]

class Facts : Prop extends Facts₀ where

variable [Facts]
-- ==== Proof.KI.Base.lean ====
import proofs.«900269_g7700000000000270_dist_redx_gaty_m2048_n1024_v7x_xy2x2_f32_1_alg».proof.Proof.Gen.KernelIdeal
import proofs.«900269_g7700000000000270_dist_redx_gaty_m2048_n1024_v7x_xy2x2_f32_1_alg».proof.Proof.Gen.KernelIdeal.Skeleton
import proofs.«900269_g7700000000000270_dist_redx_gaty_m2048_n1024_v7x_xy2x2_f32_1_alg».proof.Proof.Gen.KernelIdeal.Launch
import proofs.«900269_g7700000000000270_dist_redx_gaty_m2048_n1024_v7x_xy2x2_f32_1_alg».proof.Proof.Gen.KernelIdeal.Points
import proofs.«900269_g7700000000000270_dist_redx_gaty_m2048_n1024_v7x_xy2x2_f32_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

def xn (c : Dev nD) : Dev nD := ⟨(c.val + 2) % 4, Nat.mod_lt _ (by decide)⟩

def yn (c : Dev nD) : Dev nD := ⟨(c.val + 1 - 2 * (c.val % 2)) % 4, Nat.mod_lt _ (by decide)⟩

def col (c : Dev nD) : Fin 2 := ⟨c.val % 2, Nat.mod_lt _ (by decide)⟩

theorem xn_xn (c : Dev nD) : xn (xn c) = c := by revert c; decide
theorem yn_yn (c : Dev nD) : yn (yn c) = c := by revert c; decide
theorem col_yn (c : Dev nD) : col (yn c) = 1 - col c := by revert c; decide

def meshX : Dev nD ≃ Dev nD := ⟨xn, xn, xn_xn, xn_xn⟩
def meshY : Dev nD ≃ Dev nD := ⟨yn, yn, yn_yn, yn_yn⟩

theorem cond1_iff (c : Dev nD) : k0_cond1 c = 1#1 ↔ col c = 0 := by revert c; decide +kernel
theorem cond2_iff (c : Dev nD) : k0_cond2 c = 1#1 ↔ col c = 1 := by revert c; decide +kernel

theorem inbRow (k : Fin 32) : ∀ a, (![64 * k.val, 0] : Fin 2 → Nat) a + S64x1024.size a ≤ S2048x1024.size a := by
  intro a; fin_cases a
  · show 64 * k.val + 64 ≤ 2048; have := k.isLt; omega
  · show 0 + 1024 ≤ 1024; omega
theorem inbOut (j : Fin 2) (k : Fin 32) : ∀ a, (![64 * k.val, 1024 * j.val] : Fin 2 → Nat) a + S64x1024.size a ≤ S2048x2048.size a := by
  intro a; fin_cases a
  · show 64 * k.val + 64 ≤ 2048; have := k.isLt; omega
  · show 1024 * j.val + 1024 ≤ 2048; have := j.isLt; omega
theorem inbSem (k : Fin 32) : ∀ a, (![k.val] : Fin 1 → Nat) a + S1.size a ≤ S32.size a := by
  intro a; fin_cases a; show k.val + 1 ≤ 32; have := k.isLt; omega

abbrev rowRect (k : Fin 32) : Rect S2048x1024 := Rect.unit (s := S2048x1024) ![64 * k.val, 0] S64x1024.size (inbRow k)

abbrev outRect (j : Fin 2) (k : Fin 32) : Rect S2048x2048 := Rect.unit (s := S2048x2048) ![64 * k.val, 1024 * j.val] S64x1024.size (inbOut j k)

abbrev semAt (A : DmaSems sig S32) (k : Fin 32) : DmaSem sig :=
  ((A.slice (Rect.unit (s := S32) ![k.val] S1.size (inbSem k))).squeeze S_ squeezes_S1_S_).sem

end Cert.KernelIdeal.Coll

end
-- ==== Proof.KI.Sched.lean ====
import proofs.«900269_g7700000000000270_dist_redx_gaty_m2048_n1024_v7x_xy2x2_f32_1_alg».proof.Proof.KI.Base
import Idealize.ShloMosaic.Lib.ValueIdx

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev xM : Memref sig .tc .vmem S2048x1024 .f32 := Memref.whole cc0_stg0_0
abbrev oM : Memref sig .tc .hbm S2048x2048 .f32 := Memref.whole main_v1
abbrev bM : Memref sig .tc .vmem S2048x1024 .f32 := Memref.whole cc0_scratch0
abbrev rM : Memref sig .tc .vmem S2048x1024 .f32 := Memref.whole cc0_scratch1

/-- A printed part of the body, at this kernel's four arrays and five families of semaphores. -/
abbrev atBufs.{u} {β : Sort u}
    (f : (a0 : Memref sig .tc .vmem S2048x1024 .f32) → a0.IsWhole → (a1 : Memref sig .tc .hbm S2048x2048 .f32) → a1.IsWhole →
      (a2 : Memref sig .tc .vmem S2048x1024 .f32) → a2.IsWhole → (a3 : Memref sig .tc .vmem S2048x1024 .f32) → a3.IsWhole →
      DmaSems sig S32 → DmaSems sig S32 → DmaSems sig S32 → DmaSems sig S32 → DmaSems sig S32 → β) : β :=
  f xM (Memref.isWhole_whole _) oM (Memref.isWhole_whole _) bM (Memref.isWhole_whole _) rM (Memref.isWhole_whole _)
    cc0_scratch2 cc0_scratch3 cc0_scratch4 cc0_scratch5 cc0_scratch6

abbrev barS : Sem sig := (SemArray.scalar (sig.barrier 0 rfl) : Sems sig S_).sem

inductive Kd | s1 | r1 | s2 | r2 | cp
  deriving DecidableEq

abbrev dsem : Kd → Fin 32 → DmaSem sig
  | .s1, k => semAt cc0_scratch2 k
  | .r1, k => semAt cc0_scratch3 k
  | .s2, k => semAt cc0_scratch4 k
  | .r2, k => semAt cc0_scratch5 k
  | .cp, k => semAt cc0_scratch6 k

abbrev barCell (c : Dev nD) : GSem nD τ sig := ((c : Thread nD τ), .reg barS)
abbrev dcell (c : Dev nD) (kd : Kd) (k : Fin 32) : GSem nD τ sig := ((c : Thread nD τ), .dma (dsem kd k))

def kindOf (q : DmaSem sig) : Option (Kd × Fin 32) :=
  if h : 1 ≤ q.val ∧ q.val < 33 then some (.s1, ⟨q.val - 1, by omega⟩)
  else if h : 33 ≤ q.val ∧ q.val < 65 then some (.r1, ⟨q.val - 33, by omega⟩)
  else if h : 65 ≤ q.val ∧ q.val < 97 then some (.s2, ⟨q.val - 65, by omega⟩)
  else if h : 97 ≤ q.val ∧ q.val < 129 then some (.r2, ⟨q.val - 97, by omega⟩)
  else if h : 129 ≤ q.val ∧ q.val < 161 then some (.cp, ⟨q.val - 129, by omega⟩)
  else none

theorem kindOf_dsem (kd : Kd) (k : Fin 32) : kindOf (dsem kd k) = some (kd, k) := by
  revert k; cases kd <;> decide +kernel

theorem dsem_injective : Function.Injective (fun p : Kd × Fin 32 => dsem p.1 p.2) := by
  intro p p' h
  have := congrArg kindOf h
  rw [kindOf_dsem, kindOf_dsem] at this
  exact Option.some.inj this

abbrev N : ℕ := ((bM.slice (rowRect 0) (fun _ => rfl)) : Memref sig .tc .vmem S64x1024 .f32).view.dmaCredit
theorem N_pos : 0 < N := View.dmaCredit_pos _ (by decide)

def xs (c : Dev nD) : (cc0_stg0_0 : Ref sig .tc).ty.Contents (Elt F) := iblk m c 0 t0_0

def red (c : Dev nD) : (cc0_scratch1 : Ref sig .tc).ty.Contents (Elt F) := addf (xs m c) (xs m (xn c))

def colDev (c : Dev nD) (j : Fin 2) : Dev nD := if col c = j then c else yn c

def outv (c : Dev nD) : (main_v1 : Ref sig .tc).ty.Contents (Elt F) :=
  fun i =>
    have h0 : (i 0).val < 2048 := (i 0).isLt
    have h1 : (i 1).val < 2048 := (i 1).isLt
    red m (colDev c ⟨(i 1).val / 1024, by omega⟩)
      (ValueIdx.ix2 (⟨(i 0).val, h0⟩ : Fin 2048) (⟨(i 1).val % 1024, Nat.mod_lt _ (by decide)⟩ : Fin 1024))

abbrev xCh (k : Fin 32) : Memref sig .tc .vmem S64x1024 .f32 := xM.slice (rowRect k) (fun _ => rfl)
abbrev bCh (k : Fin 32) : Memref sig .tc .vmem S64x1024 .f32 := bM.slice (rowRect k) (fun _ => rfl)
abbrev rCh (k : Fin 32) : Memref sig .tc .vmem S64x1024 .f32 := rM.slice (rowRect k) (fun _ => rfl)
abbrev oCh (j : Fin 2) (k : Fin 32) : Memref sig .tc .hbm S64x1024 .f32 := oM.slice (outRect j k) (fun _ => rfl)

abbrev pts {sp : Space} {s : Shape} {e : EltTy} (c : Dev nD) (v : Memref sig .tc sp s e) (q : PosShare TreeShare)
    (f : Buf (Elt F) (v.view.loc (c : Thread nD τ))) : sProp 𝕄 :=
  v.view.loc (c : Thread nD τ) ↦[v.view.set]{q} f

instance pts_storable {sp : Space} {s : Shape} {e : EltTy} (c : Dev nD) (v : Memref sig .tc sp s e) (q) (f) :
    BI.Storable (upEmb : UEmb _ 𝕄) (pts (F := F) c v q f) := by unfold pts; infer_instance

def barPayX (c : Dev nD) : sProp 𝕄 := bigSep Finset.univ fun k : Fin 32 => iprop(∃ f, pts (xn c) (bCh k) fullShare f)

def barPayY (c : Dev nD) : sProp 𝕄 :=
  bigSep Finset.univ fun k : Fin 32 => pts (yn c) (oCh (col c) k) fullShare (m ((yn c : Thread nD τ).loc main_v1))

def dpay : Kd → Dev nD → Fin 32 → sProp 𝕄
  | .s1, c, k => pts c (xCh k) fullShare.left (xs m c)
  | .r1, c, k => pts c (bCh k) fullShare (xs m (xn c))
  | .s2, c, k => pts c (rCh k) fullShare.right (red m c)
  | .r2, c, k => pts c (oCh (1 - col c) k) fullShare (outv m c)
  | .cp, c, k => iprop(pts c (oCh (col c) k) fullShare (outv m c) ∗ pts c (rCh k) fullShare.left (red m c))

def Rd : Rounds.Schedule (GSem nD τ sig) Bool 𝕄 where
  duties g r :=
    if r = 0 ∧ g.1.2 = .tc then
      (match g.2 with
        | .reg s => if s = barS then Finset.univ else ∅
        | .dma q => if (kindOf q).isSome then {false} else ∅)
    else ∅
  unitless _ := False
  amount g _ _ := match g.2 with | .reg _ => 1 | .dma _ => N
  payload g _ d :=
    match g.2 with
    | .reg s => if s = barS then (if d then barPayY m g.1.1 else barPayX g.1.1) else iprop(emp)
    | .dma q => match kindOf q with | some (kd, k) => dpay m kd g.1.1 k | none => iprop(emp)
  amount_pos g _ _ _ := by
    rcases g with ⟨t, sm⟩; cases sm
    · exact Nat.one_pos
    · exact N_pos

end Cert.KernelIdeal.Coll

end
-- ==== Proof.KI.Tables.lean ====
import proofs.«900269_g7700000000000270_dist_redx_gaty_m2048_n1024_v7x_xy2x2_f32_1_alg».proof.Proof.KI.Sched

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance Rd_payload_storable (g : GSem nD τ sig) (r : ℕ) (d : Bool) :
    BI.Storable (upEmb : UEmb _ 𝕄) ((Rd (F := F) m).payload g r d) := by
  rcases g with ⟨t, sm⟩
  cases sm with
  | reg s =>
    show BI.Storable upEmb (if s = barS then (if d then barPayY m t.1 else barPayX t.1) else iprop(emp))
    unfold barPayY barPayX
    (repeat' split) <;> infer_instance
  | dma q =>
    show BI.Storable upEmb (match kindOf q with | some (kd, k) => dpay m kd t.1 k | none => iprop(emp))
    cases hq : kindOf q with
    | none => show BI.Storable upEmb (iprop(emp) : sProp 𝕄); infer_instance
    | some p =>
      obtain ⟨kd, k⟩ := p
      show BI.Storable upEmb (dpay m kd t.1 k)
      cases kd <;> (unfold dpay; infer_instance)

section Tables
variable (c : Dev nD) (kd : Kd) (k : Fin 32)

theorem duties_bar : (Rd (F := F) m).duties (barCell c) 0 = Finset.univ := by
  show (if (0 : ℕ) = 0 ∧ ((c : Thread nD τ).2 = .tc) then (if barS = barS then Finset.univ else ∅) else ∅) = _
  rw [if_pos ⟨rfl, rfl⟩, if_pos rfl]
theorem duties_d : (Rd (F := F) m).duties (dcell c kd k) 0 = {false} := by
  show (if (0 : ℕ) = 0 ∧ ((c : Thread nD τ).2 = .tc) then (if (kindOf (dsem kd k)).isSome then {false} else ∅) else ∅) = _
  rw [if_pos ⟨rfl, rfl⟩, kindOf_dsem]; rfl
theorem duties_later (g : GSem nD τ sig) : ∀ r, 1 ≤ r → (Rd (F := F) m).duties g r = ∅ := fun r hr => by
  show (if r = 0 ∧ _ then _ else ∅) = ∅
  rw [if_neg fun h => by omega]

theorem amount_bar (d : Bool) : (Rd (F := F) m).amount (barCell c) 0 d = 1 := rfl
theorem amount_d (d : Bool) : (Rd (F := F) m).amount (dcell c kd k) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (Rd (F := F) m).expect (dcell c kd k) 0 = N := by
  unfold Schedule.expect Schedule.amountOf; rw [duties_d, Finset.sum_singleton, amount_d]

theorem payload_bar_false : (Rd (F := F) m).payload (barCell c) 0 false = barPayX c := by
  show (if barS = barS then (if false = true then barPayY m c else barPayX c) else iprop(emp)) = _
  rw [if_pos rfl, if_neg Bool.false_ne_true]
theorem payload_bar_true : (Rd (F := F) m).payload (barCell c) 0 true = barPayY m c := by
  show (if barS = barS then (if true = true then barPayY m c else barPayX c) else iprop(emp)) = _
  rw [if_pos rfl, if_pos rfl]
theorem payload_d (d : Bool) : (Rd (F := F) m).payload (dcell c kd k) 0 d = dpay m kd c k := by
  show (match kindOf (dsem kd k) with | some (kd, k) => dpay m kd c k | none => iprop(emp)) = _
  rw [kindOf_dsem]

theorem rest_bar : bigSep ((Rd (F := F) m).duties (barCell c) 0 \ ∅) (fun d => (Rd (F := F) m).payload (barCell c) 0 d) = iprop(barPayX c ∗ barPayY m c) := by
  rw [Finset.sdiff_empty, duties_bar, bigSep_univ_eq_bigSepL [false, true] (by decide) (by decide), bigSepL_cons_cons, bigSepL_singleton,
    payload_bar_false, payload_bar_true]
  rfl
theorem rest_d : bigSep ((Rd (F := F) m).duties (dcell c kd k) 0 \ ∅) (fun d => (Rd (F := F) m).payload (dcell c kd k) 0 d) = dpay m kd c k := by
  rw [Finset.sdiff_empty, duties_d, bigSep_singleton, payload_d]

end Tables

end Cert.KernelIdeal.Coll

end
-- ==== Proof.KI.Inv.lean ====
import proofs.«900269_g7700000000000270_dist_redx_gaty_m2048_n1024_v7x_xy2x2_f32_1_alg».proof.Proof.KI.Tables

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance : Fintype Kd := ⟨{.s1, .r1, .s2, .r2, .cp}, fun x => by cases x <;> decide⟩

def s₀ : MemSt nD τ sig (Elt F) := ⟨m, fun _ => 0, ρ⟩

def tR1 (c : Dev nD) (k : Fin 32) : CellTallies nD τ sig Unit := tallyAt (dcell (xn c) .r1 k) () N
def tR2 (c : Dev nD) (k : Fin 32) : CellTallies nD τ sig Unit := tallyAt (dcell (yn c) .r2 k) () N

def R1 (c : Dev nD) (n : ℕ) : CellTallies nD τ sig Unit := ∑ k ∈ Finset.univ.filter (fun k : Fin 32 => n ≤ k.val), tR1 c k
def R2 (c : Dev nD) (n : ℕ) : CellTallies nD τ sig Unit := ∑ k ∈ Finset.univ.filter (fun k : Fin 32 => n ≤ k.val), tR2 c k

theorem filter_succ (k : Fin 32) :
    Finset.univ.filter (fun j : Fin 32 => k.val ≤ j.val) = insert k (Finset.univ.filter (fun j : Fin 32 => k.val + 1 ≤ j.val)) := by
  ext j; simp only [Finset.mem_filter, Finset.mem_univ, true_and, Finset.mem_insert]
  constructor
  · intro h; by_cases e : j = k
    · exact Or.inl e
    · exact Or.inr (by have : j.val ≠ k.val := fun h' => e (Fin.ext h'); omega)
  · rintro (rfl | h) <;> omega
theorem R1_succ (c : Dev nD) (k : Fin 32) : R1 c k.val = R1 c (k.val + 1) + tR1 c k := by
  unfold R1; rw [filter_succ k, Finset.sum_insert (by simp), add_comm]
theorem R2_succ (c : Dev nD) (k : Fin 32) : R2 c k.val = R2 c (k.val + 1) + tR2 c k := by
  unfold R2; rw [filter_succ k, Finset.sum_insert (by simp), add_comm]
theorem R1_end (c : Dev nD) : R1 c 32 = 0 := by
  unfold R1; rw [Finset.filter_false_of_mem (fun k _ => by have := k.isLt; omega), Finset.sum_empty]
theorem R2_end (c : Dev nD) : R2 c 32 = 0 := by
  unfold R2; rw [Finset.filter_false_of_mem (fun k _ => by have := k.isLt; omega), Finset.sum_empty]

def O₁ (c : Dev nD) : CellTallies nD τ sig Unit := (R2 c 0 + R1 c 0) + tallyAt (barCell (yn c)) () 1
def O₀ (c : Dev nD) : CellTallies nD τ sig Unit := O₁ c + tallyAt (barCell (xn c)) () 1

def L (g : GSem nD τ sig) : Finset Unit := if g.1.2 = .tc then {()} else ∅
def lv (g : GSem nD τ sig) (_ : Unit) : ℕ :=
  match g.2 with
  | .reg s => if s = barS then 1 else 0
  | .dma q => match kindOf q with | some (.r1, _) => 2 | some (.r2, _) => 3 | _ => 0

theorem L_of_ne (g : GSem nD τ sig) (h : g.1.2 ≠ .tc) : L g = ∅ := if_neg h
theorem L_tc (c : Dev nD) (sm : SemLoc sig) : L ((c : Thread nD τ), sm) = {()} := if_pos rfl

abbrev KIx : Type := Dev nD × Option (Kd × Fin 32)
abbrev kcell : KIx → GSem nD τ sig
  | (c, none) => barCell c
  | (c, some (kd, k)) => dcell c kd k

def records (K : KIx → ℕ) : sProp 𝕄 :=
  iprop((bigSep Finset.univ fun ck : KIx => cellInv ER (Rd m) (K ck) (kcell ck))
    ∗ bigSep Finset.univ fun ck : KIx => reached ER (kcell ck) 0)

instance records_persistent (K : KIx → ℕ) : BI.Persistent (records (F := F) m K) := by unfold records; infer_instance

theorem inv_at' (K : KIx → ℕ) (ck : KIx) :
    (bigSep Finset.univ fun ck : KIx => (cellInv ER (Rd m) (K ck) (kcell ck) : sProp 𝕄)) ⊢ cellInv ER (Rd m) (K ck) (kcell ck) :=
  bigSep_elim (Finset.mem_univ ck)
theorem reached_at' (ck : KIx) :
    (bigSep Finset.univ fun ck : KIx => (reached ER (kcell ck) 0 : sProp 𝕄)) ⊢ reached ER (kcell ck) 0 :=
  bigSep_elim (Finset.mem_univ ck)
theorem inv_at (K : KIx → ℕ) (ck : KIx) : records (F := F) m K ⊢ cellInv ER (Rd m) (K ck) (kcell ck) := by
  unfold records; iintro ⟨#HI, -⟩; iapply (inv_at' m K ck); iexact HI
theorem reached_at (K : KIx → ℕ) (ck : KIx) : records (F := F) m K ⊢ reached ER (kcell ck) 0 := by
  unfold records; iintro ⟨-, #HR⟩; iapply (reached_at' (F := F) ck); iexact HR

def chunkTok (c : Dev nD) (k : Fin 32) : sProp 𝕄 :=
  iprop(atPos ER (dcell c .s1 k) 0 ∅ 0 ∗ atPos ER (dcell c .r1 k) 0 ∅ 0 ∗ atPos ER (dcell c .s2 k) 0 ∅ 0
    ∗ atPos ER (dcell c .r2 k) 0 ∅ 0 ∗ atPos ER (dcell c .cp k) 0 ∅ 0
    ∗ dutyTok ER (dcell (xn c) .r1 k) 0 false ∗ dutyTok ER (dcell (yn c) .r2 k) 0 false
    ∗ dutyTok ER (dcell c .s1 k) 0 false ∗ dutyTok ER (dcell c .s2 k) 0 false ∗ dutyTok ER (dcell c .cp k) 0 false
    ∗ cred (tallyAt (dcell c .r1 k) () N) ∗ cred (tallyAt (dcell c .r2 k) () N))

def lin (c : Dev nD) : sProp 𝕄 :=
  iprop(atPos ER (barCell c) 0 ∅ 0 ∗ dutyTok ER (barCell (xn c)) 0 false ∗ dutyTok ER (barCell (yn c)) 0 true
    ∗ cred (tallyAt (barCell c) () 2) ∗ bigSep Finset.univ fun k : Fin 32 => chunkTok c k)

def start (c : Dev nD) : sProp 𝕄 :=
  iprop((∃ K, records m K) ∗ lin c ∗ levAts L lv ∗ (((c : Thread nD τ).loc main_v1) ↦{fullShare} m ((c : Thread nD τ).loc main_v1)))

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((((c : Thread nD τ).loc main_v1) ↦{fullShare} outv m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun p : Kd × Fin 32 => semVal (dcell c p.1 p.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Coll

end
-- ==== Proof.KI.Regions.lean ====
import proofs.«900269_g7700000000000270_dist_redx_gaty_m2048_n1024_v7x_xy2x2_f32_1_alg».proof.Proof.KI.Sched
import Idealize.ShloMosaic.Rules.PointsTo
import Idealize.ShloMosaic.Lib.Pipeline.Value

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def payAdd (vx vb : Vec F S64x1024 .f32) : FVec F S64x1024 .f32 :=
  shapeCast S64x1024 (addf (shapeCast S64x1024 vx shapeCasts_S64x1024_S64x1024) vb) shapeCasts_S64x1024_S64x1024

theorem rg_univ_rows : (Finset.univ : Finset S2048x1024.Idx) = Finset.univ.biUnion (fun k : Fin 32 => (rowRect k).set) := by
  ext i
  simp only [Finset.mem_univ, Finset.mem_biUnion, true_and, true_iff]
  have h0 : (i 0).val < 2048 := (i 0).isLt
  have h1 : (i 1).val < 1024 := (i 1).isLt
  refine ⟨⟨(i 0).val / 64, by omega⟩, ?_⟩
  rw [Rect.mem_set_unit]
  intro a; fin_cases a
  · show 64 * ((i 0).val / 64) ≤ (i 0).val ∧ (i 0).val < 64 * ((i 0).val / 64) + 64; omega
  · show 0 ≤ (i 1).val ∧ (i 1).val < 0 + 1024; omega

theorem rg_rows_disj (k k' : Fin 32) (h : k ≠ k') : Disjoint (rowRect k).set (rowRect k').set := by
  refine Rect.unit_disjoint 0 ?_
  show 64 * k.val + 64 ≤ 64 * k'.val ∨ 64 * k'.val + 64 ≤ 64 * k.val
  have : k.val ≠ k'.val := fun e => h (Fin.ext e)
  omega

theorem split_x (c : Dev nD) (q : PosShare TreeShare) (f : Buf (Elt F) ((c : Thread nD τ).loc cc0_stg0_0)) :
    ((((c : Thread nD τ).loc cc0_stg0_0) ↦{q} f) : sProp 𝕄) = bigSep Finset.univ fun k : Fin 32 => pts c (xCh k) q f := by
  show (((c : Thread nD τ).loc cc0_stg0_0) ↦[Finset.univ]{q} f : sProp 𝕄) = _
  rw [show (Finset.univ : Finset (Idx ((c : Thread nD τ).loc cc0_stg0_0))) = Finset.univ.biUnion (fun k : Fin 32 => (rowRect k).set) from rg_univ_rows,
    pointsTo_biUnion _ _ (fun k _ k' _ h => rg_rows_disj k k' h)]
  congr 1; funext k
  unfold pts
  show _ = ((c : Thread nD τ).loc cc0_stg0_0 ↦[((View.whole cc0_stg0_0 : View sig .tc _ _ _).slice (rowRect k)).set]{q} f)
  rw [View.set_slice_whole]
theorem split_b (c : Dev nD) (q : PosShare TreeShare) (f : Buf (Elt F) ((c : Thread nD τ).loc cc0_scratch0)) :
    ((((c : Thread nD τ).loc cc0_scratch0) ↦{q} f) : sProp 𝕄) = bigSep Finset.univ fun k : Fin 32 => pts c (bCh k) q f := by
  show (((c : Thread nD τ).loc cc0_scratch0) ↦[Finset.univ]{q} f : sProp 𝕄) = _
  rw [show (Finset.univ : Finset (Idx ((c : Thread nD τ).loc cc0_scratch0))) = Finset.univ.biUnion (fun k : Fin 32 => (rowRect k).set) from rg_univ_rows,
    pointsTo_biUnion _ _ (fun k _ k' _ h => rg_rows_disj k k' h)]
  congr 1; funext k
  unfold pts
  show _ = ((c : Thread nD τ).loc cc0_scratch0 ↦[((View.whole cc0_scratch0 : View sig .tc _ _ _).slice (rowRect k)).set]{q} f)
  rw [View.set_slice_whole]
theorem split_r (c : Dev nD) (q : PosShare TreeShare) (f : Buf (Elt F) ((c : Thread nD τ).loc cc0_scratch1)) :
    ((((c : Thread nD τ).loc cc0_scratch1) ↦{q} f) : sProp 𝕄) = bigSep Finset.univ fun k : Fin 32 => pts c (rCh k) q f := by
  show (((c : Thread nD τ).loc cc0_scratch1) ↦[Finset.univ]{q} f : sProp 𝕄) = _
  rw [show (Finset.univ : Finset (Idx ((c : Thread nD τ).loc cc0_scratch1))) = Finset.univ.biUnion (fun k : Fin 32 => (rowRect k).set) from rg_univ_rows,
    pointsTo_biUnion _ _ (fun k _ k' _ h => rg_rows_disj k k' h)]
  congr 1; funext k
  unfold pts
  show _ = ((c : Thread nD τ).loc cc0_scratch1 ↦[((View.whole cc0_scratch1 : View sig .tc _ _ _).slice (rowRect k)).set]{q} f)
  rw [View.set_slice_whole]

theorem rg_univ_out : (Finset.univ : Finset S2048x2048.Idx)
    = (Finset.univ.biUnion (fun k : Fin 32 => (outRect 0 k).set)) ∪ (Finset.univ.biUnion (fun k : Fin 32 => (outRect 1 k).set)) := by
  ext i
  simp only [Finset.mem_univ, Finset.mem_union, Finset.mem_biUnion, true_and, true_iff]
  have h0 : (i 0).val < 2048 := (i 0).isLt
  have h1 : (i 1).val < 2048 := (i 1).isLt
  by_cases hj : (i 1).val < 1024
  · left
    refine ⟨⟨(i 0).val / 64, by omega⟩, ?_⟩
    rw [Rect.mem_set_unit]
    intro a; fin_cases a
    · show 64 * ((i 0).val / 64) ≤ (i 0).val ∧ (i 0).val < 64 * ((i 0).val / 64) + 64; omega
    · show 1024 * 0 ≤ (i 1).val ∧ (i 1).val < 1024 * 0 + 1024; omega
  · right
    refine ⟨⟨(i 0).val / 64, by omega⟩, ?_⟩
    rw [Rect.mem_set_unit]
    intro a; fin_cases a
    · show 64 * ((i 0).val / 64) ≤ (i 0).val ∧ (i 0).val < 64 * ((i 0).val / 64) + 64; omega
    · show 1024 * 1 ≤ (i 1).val ∧ (i 1).val < 1024 * 1 + 1024; omega

theorem rg_out_disj (j : Fin 2) (k k' : Fin 32) (h : k ≠ k') : Disjoint (outRect j k).set (outRect j k').set := by
  refine Rect.unit_disjoint 0 ?_
  show 64 * k.val + 64 ≤ 64 * k'.val ∨ 64 * k'.val + 64 ≤ 64 * k.val
  have : k.val ≠ k'.val := fun e => h (Fin.ext e)
  omega

theorem rg_out_halves_disj : Disjoint (Finset.univ.biUnion (fun k : Fin 32 => (outRect 0 k).set)) (Finset.univ.biUnion (fun k : Fin 32 => (outRect 1 k).set)) := by
  rw [Finset.disjoint_biUnion_left]; intro k _
  rw [Finset.disjoint_biUnion_right]; intro k' _
  refine Rect.unit_disjoint 1 ?_
  show 1024 * 0 + 1024 ≤ 1024 * 1 ∨ 1024 * 1 + 1024 ≤ 1024 * 0
  omega

theorem rg_pts_o (c : Dev nD) (j : Fin 2) (k : Fin 32) (q : PosShare TreeShare) (f : Buf (Elt F) ((c : Thread nD τ).loc main_v1)) :
    (pts c (oCh j k) q f : sProp 𝕄) = ((c : Thread nD τ).loc main_v1 ↦[(outRect j k).set]{q} f) := by
  unfold pts
  show ((c : Thread nD τ).loc main_v1 ↦[((View.whole main_v1 : View sig .tc _ _ _).slice (outRect j k)).set]{q} f) = _
  rw [View.set_slice_whole]

theorem split_o (c : Dev nD) (f : Buf (Elt F) ((c : Thread nD τ).loc main_v1)) :
    ((((c : Thread nD τ).loc main_v1) ↦{fullShare} f) : sProp 𝕄)
      = iprop((bigSep Finset.univ fun k : Fin 32 => pts c (oCh 0 k) fullShare f) ∗ (bigSep Finset.univ fun k : Fin 32 => pts c (oCh 1 k) fullShare f)) := by
  have hu : (((c : Thread nD τ).loc main_v1) ↦[(Finset.univ.biUnion fun k : Fin 32 => (outRect 0 k).set) ∪ (Finset.univ.biUnion fun k : Fin 32 => (outRect 1 k).set)]{fullShare} f : sProp 𝕄)
      ⊣⊢ iprop((((c : Thread nD τ).loc main_v1) ↦[Finset.univ.biUnion fun k : Fin 32 => (outRect 0 k).set]{fullShare} f)
          ∗ ((c : Thread nD τ).loc main_v1) ↦[Finset.univ.biUnion fun k : Fin 32 => (outRect 1 k).set]{fullShare} f) :=
    pointsTo_union rg_out_halves_disj
  have h0 : (((c : Thread nD τ).loc main_v1) ↦[Finset.univ.biUnion fun k : Fin 32 => (outRect 0 k).set]{fullShare} f : sProp 𝕄)
      = bigSep Finset.univ fun k : Fin 32 => ((c : Thread nD τ).loc main_v1) ↦[(outRect 0 k).set]{fullShare} f :=
    pointsTo_biUnion _ _ (fun k _ k' _ h => rg_out_disj 0 k k' h)
  have h1 : (((c : Thread nD τ).loc main_v1) ↦[Finset.univ.biUnion fun k : Fin 32 => (outRect 1 k).set]{fullShare} f : sProp 𝕄)
      = bigSep Finset.univ fun k : Fin 32 => ((c : Thread nD τ).loc main_v1) ↦[(outRect 1 k).set]{fullShare} f :=
    pointsTo_biUnion _ _ (fun k _ k' _ h => rg_out_disj 1 k k' h)
  simp only [rg_pts_o]
  show (((c : Thread nD τ).loc main_v1) ↦[Finset.univ]{fullShare} f : sProp 𝕄) = _
  rw [show (Finset.univ : Finset (Idx ((c : Thread nD τ).loc main_v1))) = _ from rg_univ_out,
    BI.equiv_iff.mp ⟨hu.1, hu.2⟩]
  exact congrArg₂ (fun a b : sProp 𝕄 => iprop(a ∗ b)) h0 h1

theorem pts_halves {sp : Space} {s : Shape} {e : EltTy} (c : Dev nD) (v : Memref sig .tc sp s e) (f : Buf (Elt F) (v.view.loc (c : Thread nD τ))) :
    (pts c v fullShare f : sProp 𝕄) = iprop(pts c v fullShare.left f ∗ pts c v fullShare.right f) := by
  unfold pts
  have h : (v.view.loc (c : Thread nD τ) ↦[v.view.set]{fullShare} f : sProp 𝕄)
      ⊣⊢ iprop((v.view.loc (c : Thread nD τ) ↦[v.view.set]{fullShare.left} f)
          ∗ v.view.loc (c : Thread nD τ) ↦[v.view.set]{fullShare.right} f) :=
    pointsTo_share (PosShare.mem_left_op_right fullShare)
  exact BI.equiv_iff.mp ⟨h.1, h.2⟩

theorem rg_land {sp : Space} {s : Shape} {e : EltTy} (c : Dev nD) (v : Memref sig .tc sp s e) (q : PosShare TreeShare)
    (fd g : Buf (Elt F) (v.view.loc (c : Thread nD τ))) :
    (pts c v q (v.view.write (Elt F) fd (v.view.read (Elt F) g) Finset.univ) : sProp 𝕄) = pts c v q g := by
  unfold pts
  rw [View.write_read_eq_piecewise]
  exact pointsTo_congr fun i hi => Finset.piecewise_eq_of_mem _ _ _ hi

theorem land_b (c c' : Dev nD) (k : Fin 32) (fd : Buf (Elt F) ((bCh k).view.loc (c' : Thread nD τ))) (fs : Buf (Elt F) ((xCh k).view.loc (c : Thread nD τ))) :
    (pts c' (bCh k) fullShare ((bCh k).view.write (Elt F) fd ((xCh k).view.read (Elt F) fs) Finset.univ) : sProp 𝕄) = pts c' (bCh k) fullShare fs := by
  exact rg_land c' (bCh k) fullShare fd fs

theorem rg_read_o (c c' : Dev nD) (j : Fin 2) (k : Fin 32) (hc : c = colDev c' j) :
    (rCh k).view.read (Elt F) (red m c) = (oCh j k).view.read (Elt F) (outv m c') := by
  funext x
  have hx1 : (x 1).val < 1024 := (x 1).isLt
  have hj : j.val < 2 := j.isLt
  have key : ∀ (a : Fin 2) (b : S2048x1024.Idx), a = j → b = (rowRect k).emb x →
      red m (colDev c' a) b = red m c ((rowRect k).emb x) := by
    rintro _ _ rfl rfl; rw [hc]
  show red m c ((rowRect k).emb x) = outv m c' ((outRect j k).emb x)
  unfold outv
  exact (key _ _ (Fin.ext (by show (1024 * j.val + 1 * (x 1).val) / 1024 = j.val; omega))
    (Shape.idx_ext₂ (n := ![2048, 1024]) (by show 64 * k.val + 1 * (x 0).val = 64 * k.val + 1 * (x 0).val; rfl)
      (by show (1024 * j.val + 1 * (x 1).val) % 1024 = 0 + 1 * (x 1).val; omega))).symm

theorem land_o (c c' : Dev nD) (j : Fin 2) (k : Fin 32) (hc : c = colDev c' j) (fd : Buf (Elt F) ((oCh j k).view.loc (c' : Thread nD τ))) :
    (pts c' (oCh j k) fullShare ((oCh j k).view.write (Elt F) fd ((rCh k).view.read (Elt F) (red m c)) Finset.univ) : sProp 𝕄)
      = pts c' (oCh j k) fullShare (outv m c') := by
  rw [rg_read_o m c c' j k hc]
  exact rg_land c' (oCh j k) fullShare fd (outv m c')

theorem rg_payAdd_read (c : Dev nD) (k : Fin 32) :
    payAdd (xM.view.readAt (Elt F) (rowRect k).toLoadRect (xs m c)) (bM.view.readAt (Elt F) (rowRect k).toLoadRect (xs m (xn c)))
      = (rCh k).view.read (Elt F) (red m c) := by
  unfold payAdd
  rw [shapeCast_self, shapeCast_self]
  rfl

theorem store_r (c : Dev nD) (k : Fin 32) (f : Buf (Elt F) ((rM.access (rowRect k)).loc (c : Thread nD τ))) :
    (((rM.access (rowRect k)).loc (c : Thread nD τ) ↦[(rCh k).view.set]{fullShare}
        ((rM.access (rowRect k)).write (Elt F) f
          (payAdd (xM.view.readAt (Elt F) (rowRect k).toLoadRect (xs m c)) (bM.view.readAt (Elt F) (rowRect k).toLoadRect (xs m (xn c)))) Finset.univ)) : sProp 𝕄)
      = pts c (rCh k) fullShare (red m c) := by
  rw [rg_payAdd_read m c k]
  exact rg_land c (rCh k) fullShare f (red m c)

end Cert.KernelIdeal.Coll

end
-- ==== Proof.KI.Chunk.lean ====
import proofs.«900269_g7700000000000270_dist_redx_gaty_m2048_n1024_v7x_xy2x2_f32_1_alg».proof.Proof.KI.Inv
import proofs.«900269_g7700000000000270_dist_redx_gaty_m2048_n1024_v7x_xy2x2_f32_1_alg».proof.Proof.KI.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def owesX (c : Dev nD) (O : CellTallies nD τ sig Unit) : sProp 𝕄 := iprop(∃ W : Waits sig Unit, owes (c : Thread nD τ) O W)

section Chunk
variable (K : KIx → ℕ) (c : Dev nD) (j : Fin 2) (k : Fin 32)

abbrev aP (kd : Kd) (r : ℕ) : sProp 𝕄 := atPos ER (dcell c kd k) r ∅ 0
abbrev crd (kd : Kd) : sProp 𝕄 := cred (tallyAt (dcell c kd k) () N)
abbrev aPs (a b d e f : ℕ) : sProp 𝕄 :=
  iprop(aP (F := F) c k .s1 a ∗ aP (F := F) c k .r1 b ∗ aP (F := F) c k .s2 d ∗ aP (F := F) c k .r2 e ∗ aP (F := F) c k .cp f)

abbrev X (q : PosShare TreeShare) : sProp 𝕄 := pts c (xCh k) q (xs m c)
abbrev Bo : sProp 𝕄 := pts c (bCh k) fullShare (xs m (xn c))
abbrev Rr (q : PosShare TreeShare) : sProp 𝕄 := pts c (rCh k) q (red m c)
abbrev Rany : sProp 𝕄 := iprop(∃ f, pts c (rCh k) fullShare f)
abbrev Bpeer : sProp 𝕄 := iprop(∃ f, pts (xn c) (bCh k) fullShare f)
abbrev Oo : sProp 𝕄 := pts c (oCh j k) fullShare (m ((c : Thread nD τ).loc main_v1))
abbrev Oo' : sProp 𝕄 := pts c (oCh j k) fullShare (outv m c)
abbrev Qq' : sProp 𝕄 := pts c (oCh (1 - j) k) fullShare (outv m c)
abbrev Pp : sProp 𝕄 := pts (yn c) (oCh j k) fullShare (m ((yn c : Thread nD τ).loc main_v1))
abbrev tk1 : sProp 𝕄 := dutyTok ER (dcell (xn c) .r1 k) 0 false
abbrev tk2 : sProp 𝕄 := dutyTok ER (dcell (yn c) .r2 k) 0 false
abbrev tks (kd : Kd) : sProp 𝕄 := dutyTok ER (dcell c kd k) 0 false

abbrev pers : sProp 𝕄 := iprop(records m K ∗ levAts L lv)

def ck0 : sProp 𝕄 :=
    iprop(pers m K ∗ X m c k fullShare ∗ Bpeer c k ∗ Rany c k ∗ Oo m c j k ∗ Pp m c j k ∗ aPs c k 0 0 0 0 0
      ∗ tk1 c k ∗ tk2 c k ∗ tks c k .s1 ∗ tks c k .s2 ∗ tks c k .cp ∗ crd c k .r1 ∗ crd c k .r2)
def ck1 : sProp 𝕄 :=
    iprop(pers m K ∗ X m c k fullShare.right ∗ crd c k .s1 ∗ Rany c k ∗ Oo m c j k ∗ Pp m c j k ∗ aPs c k 0 0 0 0 0
      ∗ tk2 c k ∗ tks c k .s2 ∗ tks c k .cp ∗ crd c k .r1 ∗ crd c k .r2)
def ck2 : sProp 𝕄 :=
    iprop(pers m K ∗ X m c k fullShare.right ∗ crd c k .s1 ∗ Bo m c k ∗ Rany c k ∗ Oo m c j k ∗ Pp m c j k ∗ aPs c k 0 1 0 0 0
      ∗ tk2 c k ∗ tks c k .s2 ∗ tks c k .cp ∗ crd c k .r2)
def ck3 : sProp 𝕄 :=
    iprop(pers m K ∗ X m c k fullShare.right ∗ crd c k .s1 ∗ Bo m c k ∗ Rr m c k fullShare ∗ Oo m c j k ∗ Pp m c j k ∗ aPs c k 0 1 0 0 0
      ∗ tk2 c k ∗ tks c k .s2 ∗ tks c k .cp ∗ crd c k .r2)
def ck4 : sProp 𝕄 :=
    iprop(pers m K ∗ X m c k fullShare.right ∗ crd c k .s1 ∗ Bo m c k ∗ Rr m c k fullShare.right ∗ crd c k .cp ∗ Pp m c j k ∗ aPs c k 0 1 0 0 0
      ∗ tk2 c k ∗ tks c k .s2 ∗ crd c k .r2)
def ck5 : sProp 𝕄 :=
    iprop(pers m K ∗ X m c k fullShare.right ∗ crd c k .s1 ∗ Bo m c k ∗ crd c k .cp ∗ crd c k .s2 ∗ aPs c k 0 1 0 0 0 ∗ crd c k .r2)
def ck6 : sProp 𝕄 :=
    iprop(pers m K ∗ X m c k fullShare ∗ Bo m c k ∗ crd c k .cp ∗ crd c k .s2 ∗ aPs c k 1 1 0 0 0 ∗ crd c k .r2)
def ck7 : sProp 𝕄 :=
    iprop(pers m K ∗ X m c k fullShare ∗ Bo m c k ∗ Oo' m c j k ∗ Rr m c k fullShare.left ∗ crd c k .s2 ∗ aPs c k 1 1 0 0 1 ∗ crd c k .r2)
def ck8 : sProp 𝕄 :=
    iprop(pers m K ∗ X m c k fullShare ∗ Bo m c k ∗ Oo' m c j k ∗ Rr m c k fullShare ∗ aPs c k 1 1 1 0 1 ∗ crd c k .r2)
def ck9 : sProp 𝕄 :=
    iprop(pers m K ∗ X m c k fullShare ∗ Bo m c k ∗ Oo' m c j k ∗ Qq' m c j k ∗ Rr m c k fullShare ∗ aPs c k 1 1 1 1 1)

end Chunk

end Cert.KernelIdeal.Coll

end
-- ==== Proof.KI.Waits.lean ====
import proofs.«900269_g7700000000000270_dist_redx_gaty_m2048_n1024_v7x_xy2x2_f32_1_alg».proof.Proof.KI.Inv

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem R1_pos {c : Dev nD} {n : ℕ} {g : GSem nD τ sig} {u : Unit} (h : 0 < R1 c n g u) :
    ∃ k, g = dcell (xn c) .r1 k := by
  unfold R1 at h
  rw [Finset.sum_apply, Finsupp.finset_sum_apply] at h
  obtain ⟨k, -, hk⟩ := Finset.exists_ne_zero_of_sum_ne_zero (Nat.pos_iff_ne_zero.mp h)
  refine ⟨k, ?_⟩
  unfold tR1 at hk; rw [tallyAt_apply] at hk
  by_contra hn
  exact hk (if_neg fun h' => hn h'.1)

theorem R2_pos {c : Dev nD} {n : ℕ} {g : GSem nD τ sig} {u : Unit} (h : 0 < R2 c n g u) :
    ∃ k, g = dcell (yn c) .r2 k := by
  unfold R2 at h
  rw [Finset.sum_apply, Finsupp.finset_sum_apply] at h
  obtain ⟨k, -, hk⟩ := Finset.exists_ne_zero_of_sum_ne_zero (Nat.pos_iff_ne_zero.mp h)
  refine ⟨k, ?_⟩
  unfold tR2 at hk; rw [tallyAt_apply] at hk
  by_contra hn
  exact hk (if_neg fun h' => hn h'.1)

theorem R21_pos {c : Dev nD} {n n' : ℕ} {g : GSem nD τ sig} {u : Unit} (h : 0 < (R2 c n + R1 c n') g u) :
    (∃ k, g = dcell (yn c) .r2 k) ∨ (∃ k, g = dcell (xn c) .r1 k) := by
  rw [Pi.add_apply, Finsupp.add_apply] at h
  by_cases h2 : 0 < R2 c n g u
  · exact Or.inl (R2_pos h2)
  · exact Or.inr (R1_pos (n := n') (u := u) (by omega))

theorem O₀_pos {c : Dev nD} {g : GSem nD τ sig} {u : Unit} (h : 0 < O₀ c g u) :
    (∃ k, g = dcell (yn c) .r2 k) ∨ (∃ k, g = dcell (xn c) .r1 k) ∨ g = barCell (yn c) ∨ g = barCell (xn c) := by
  unfold O₀ O₁ at h
  rw [Pi.add_apply, Finsupp.add_apply, Pi.add_apply, Finsupp.add_apply, tallyAt_apply, tallyAt_apply] at h
  by_cases hy : g = barCell (yn c)
  · exact Or.inr (Or.inr (Or.inl hy))
  by_cases hx : g = barCell (xn c)
  · exact Or.inr (Or.inr (Or.inr hx))
  rw [if_neg (fun h' => hy h'.1), if_neg (fun h' => hx h'.1)] at h
  rcases R21_pos (c := c) (n := 0) (n' := 0) (g := g) (u := u) (by omega) with h' | h'
  · exact Or.inl h'
  · exact Or.inr (Or.inl h')

theorem lv_bar (c : Dev nD) (u : Unit) : lv (barCell c) u = 1 := by
  dsimp only [lv]; rw [if_pos rfl]
theorem lv_r1 (c : Dev nD) (k : Fin 32) (u : Unit) : lv (dcell c .r1 k) u = 2 := by
  dsimp only [lv]; rw [kindOf_dsem]
theorem lv_r2 (c : Dev nD) (k : Fin 32) (u : Unit) : lv (dcell c .r2 k) u = 3 := by
  dsimp only [lv]; rw [kindOf_dsem]
theorem kindOf_stage : kindOf cc0_sem0_0 = none := by decide +kernel
theorem lv_stage (c : Dev nD) (u : Unit) : lv ((c : Thread nD τ), .dma cc0_sem0_0) u = 0 := by
  dsimp only [lv]; rw [kindOf_stage]

theorem mayWait_stage (c : Dev nD) (O : CellTallies nD τ sig Unit) (hO : O = O₀ c ∨ O = 0) :
    (levAts L lv : sProp 𝕄) ⊢ MayWait (c : Thread nD τ) (.dma cc0_sem0_0) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, rfl⟩ | ⟨k, rfl⟩ | rfl | rfl <;> (rw [L_tc]; exact Finset.mem_singleton_self _))
      (fun p hp => by rw [Finset.mem_singleton.mp hp, lv_stage])
      (fun g u hg => by
        rcases O₀_pos hg with ⟨k, rfl⟩ | ⟨k, rfl⟩ | rfl | rfl
        · rw [lv_r2]; decide
        · rw [lv_r1]; decide
        · rw [lv_bar]; decide
        · rw [lv_bar]; decide)
  · rw [MayWait_zero]; iintro -; iempintro

theorem mayWait_bar (c : Dev nD) :
    (levAts L lv : sProp 𝕄) ⊢ MayWait (c : Thread nD τ) (.reg barS) () (R2 c 0 + R1 c 0) :=
  MayOwe.of_cut (L := L) (lev := lv) 1 (fun p hp => by rw [Finset.mem_singleton.mp hp, L_tc]; exact Finset.mem_singleton_self _)
    (fun g u hg => by
      rcases R21_pos hg with ⟨k, rfl⟩ | ⟨k, rfl⟩ <;> (rw [L_tc]; exact Finset.mem_singleton_self _))
    (fun p hp => by rw [Finset.mem_singleton.mp hp, lv_bar])
    (fun g u hg => by
      rcases R21_pos hg with ⟨k, rfl⟩ | ⟨k, rfl⟩
      · rw [lv_r2]; decide
      · rw [lv_r1]; decide)

theorem mayWait_r1 (c : Dev nD) (k : Fin 32) (n : ℕ) :
    (levAts L lv : sProp 𝕄) ⊢ MayWait (c : Thread nD τ) (.dma (dsem .r1 k)) () (R2 c n) :=
  MayOwe.of_cut (L := L) (lev := lv) 2 (fun p hp => by rw [Finset.mem_singleton.mp hp, L_tc]; exact Finset.mem_singleton_self _)
    (fun g u hg => by
      obtain ⟨k', rfl⟩ := R2_pos hg; rw [L_tc]; exact Finset.mem_singleton_self _)
    (fun p hp => by rw [Finset.mem_singleton.mp hp, lv_r1])
    (fun g u hg => by
      obtain ⟨k', rfl⟩ := R2_pos hg; rw [lv_r2]; decide)

end Cert.KernelIdeal.Coll

end
-- ==== Proof.KI.Ops1.lean ====
import proofs.«900269_g7700000000000270_dist_redx_gaty_m2048_n1024_v7x_xy2x2_f32_1_alg».proof.Proof.KI.Chunk
import proofs.«900269_g7700000000000270_dist_redx_gaty_m2048_n1024_v7x_xy2x2_f32_1_alg».proof.Proof.KI.Waits

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (K : KIx → ℕ) (c : Dev nD) (j : Fin 2) (k : Fin 32)

theorem owesX_R1_end : owesX (F := F) c (R2 c 0 + R1 c 32) ⊢ owesX c (R2 c 0) := by rw [R1_end, add_zero]
theorem owesX_R2_end : owesX (F := F) c (R2 c 32) ⊢ owesX c 0 := by rw [R2_end]

theorem op_s1 (a a' : ℕ) (ha : a = k.val) (ha' : a' = k.val + 1) (n : Dev nD) (hn : n = xn c)
    {hsc : ((bCh k : Memref sig (Dev.tc n : Thread nD τ).2.kind .vmem S64x1024 .f32)).view.ref.isScScratch = false}
    {hsrc : (xCh k).view.WordExact} {hdst : (bCh k).view.WordExact}
    {hsem : DmaTarget.Typed .vmem (.dma (dsem .r1 k)) (.remote (Dev.tc n : Thread nD τ) (bCh k) (.dma (dsem .s1 k)) hsc)}
    {α : Type} {Q : α → sProp 𝕄} {kk : PUnit → Prog (TpuEff nD τ sig (Elt F) Λ₀ .tc) α} :
    iprop(ck0 m K c j k ∗ owesX c (R2 c 0 + R1 c a))
      ⊢ iprop((iprop(ck1 m K c j k ∗ owesX c (R2 c 0 + R1 c a')) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xCh k) (.remote (Dev.tc n : Thread nD τ) (bCh k) (.dma (dsem .s1 k)) hsc) (.dma (dsem .r1 k)) hsrc hdst hsem) kk) Q) := by
  subst hn ha ha'
  unfold ck0 ck1 owesX
  iintro ⟨⟨⟨#HR, #Hlev⟩, Hx, ⟨%fb, Hb⟩, Hr, Ho, Hp, Hat, Ht1, Ht2, Hs1, Hs2, Hcp, Hc1, Hc2⟩, ⟨%W, HO⟩⟩ Hk
  ihave Hx2 := (Entails.of_eq (pts_halves c (xCh k) (xs m c))) $$ Hx
  icases Hx2 with ⟨HxL, HxR⟩
  ihave #HIs := (inv_at m K (c, some (.s1, k))) $$ HR
  ihave #HIr := (inv_at m K (xn c, some (.r1, k))) $$ HR
  ihave #HRs := (reached_at m K (c, some (.s1, k))) $$ HR
  ihave #HRr := (reached_at m K (xn c, some (.r1, k))) $$ HR
  iapply (Rounds.wp_send_pointsTo 𝒱₀ ER (Rd m) (c : Thread nD τ) none (κ₁ := K (c, some (.s1, k))) (κ₂ := K (xn c, some (.r1, k)))
      (r₁ := 0) (r₂ := 0) (d₁ := false) (d₂ := false) (fd := fb) (q := fullShare.left) (fs := xs m c) (O₀ := R2 c 0 + R1 c k.val)
      (by rw [duties_d]; exact Finset.mem_singleton_self _) (by rw [duties_d]; exact Finset.mem_singleton_self _)
      () () N rfl (amount_d m c .s1 k false) (amount_d m (xn c) .r1 k false) (R2 c 0 + R1 c (k.val + 1))
      (by rw [R1_succ c k, add_assoc]; rfl : R2 c 0 + R1 c k.val = _) (W := W)
      (by rw [payload_d]; exact BI.Entails.refl _)
      (by rw [payload_d]; show _ ⊢ pts (xn c) (bCh k) fullShare (xs m (xn (xn c))); rw [xn_xn]; exact Entails.of_eq (land_b c (xn c) k fb (xs m c))))
    $$ [HxL Hb HO Hs1 Ht1]
  · isplitr; · iexact HIs
    isplitr; · iexact HIr
    isplitl [HxL]; · iexact HxL
    isplitl [Hb]; · iexact Hb
    isplitl [HO]; · iexact HO
    isplitl [Hs1]; · iexact Hs1
    isplitr; · iexact HRs
    isplitl [Ht1]; · iexact Ht1
    iexact HRr
  iintro ⟨HcS, HO⟩
  iapply Hk
  isplitr [HO]
  · isplitr
    · isplitr; · iexact HR
      iexact Hlev
    isplitl [HxR]; · iexact HxR
    isplitl [HcS]; · iexact HcS
    isplitl [Hr]; · iexact Hr
    isplitl [Ho]; · iexact Ho
    isplitl [Hp]; · iexact Hp
    isplitl [Hat]; · iexact Hat
    isplitl [Ht2]; · iexact Ht2
    isplitl [Hs2]; · iexact Hs2
    isplitl [Hcp]; · iexact Hcp
    isplitl [Hc1]; · iexact Hc1
    iexact Hc2
  · iexists W; iexact HO

theorem op_w1 (n : ℕ) {sp' : Space} {s' : Shape} {e' : EltTy} {src : Memref sig .tc sp' s' e'}
    {hsrc : src.view.WordExact} {hdst : (bCh k).view.WordExact}
    {α : Type} {Q : α → sProp 𝕄} {kk : PUnit → Prog (TpuEff nD τ sig (Elt F) Λ₀ .tc) α} :
    iprop(ck1 m K c j k ∗ owesX c (R2 c n))
      ⊢ iprop((iprop(ck2 m K c j k ∗ owesX c (R2 c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem .r1 k) src (bCh k) hsrc hdst) kk) Q) := by
  unfold ck1 ck2 owesX
  iintro ⟨⟨⟨#HR, #Hlev⟩, Hx, Hcs, Hr, Ho, Hp, ⟨Ha1, Ha2, Ha3, Ha4, Ha5⟩, Ht2, Hs2, Hcp, Hc1, Hc2⟩, ⟨%W, HO⟩⟩ Hk
  ihave #HI := (inv_at m K (c, some (.r1, k))) $$ HR
  iapply (Rounds.wp_wait_rest_token 𝒱₀ ER (Rd m) (c : Thread nD τ) none (κ := K (c, some (.r1, k)))
      (wpE_waitDma2_eq 𝒱₀ (c : Thread nD τ) none Set.univ) (Set.mem_univ _) () (O := R2 c n) (W := W) (R := 0) (m := 0) (T := ∅)
      (by rw [Nat.zero_add, expect_d]; rfl)) $$ [Hc1 HO Ha2]
  · isplitr; · iexact HI
    isplitl [Hc1]; · iexact Hc1
    isplitl [HO]; · iexact HO
    isplitr; · iapply (mayWait_r1 c k n); iexact Hlev
    iexact Ha2
  iintro ⟨HO, Ha2, -, Hpay⟩
  ihave Hb := (Entails.of_eq ((rest_d m c .r1 k).trans (show dpay m .r1 c k = Bo m c k from rfl))) $$ Hpay
  iapply Hk
  isplitr [HO]
  · isplitr
    · isplitr; · iexact HR
      iexact Hlev
    isplitl [Hx]; · iexact Hx
    isplitl [Hcs]; · iexact Hcs
    isplitl [Hb]; · iexact Hb
    isplitl [Hr]; · iexact Hr
    isplitl [Ho]; · iexact Ho
    isplitl [Hp]; · iexact Hp
    isplitl [Ha1 Ha2 Ha3 Ha4 Ha5]
    · isplitl [Ha1]; · iexact Ha1
      isplitl [Ha2]; · iexact Ha2
      isplitl [Ha3]; · iexact Ha3
      isplitl [Ha4]; · iexact Ha4
      iexact Ha5
    isplitl [Ht2]; · iexact Ht2
    isplitl [Hs2]; · iexact Hs2
    isplitl [Hcp]; · iexact Hcp
    iexact Hc2
  · iexists _; iexact HO

theorem op_lx {hl : xM.view.LoadsAt (rowRect k).toLoadRect}
    {α : Type} {Q : α → sProp 𝕄} {kk : ((rowRect k).toLoadRect.shape.Idx → Elt F .f32) → Prog (TpuEff nD τ sig (Elt F) Λ₀ .tc) α} :
    ck2 m K c j k
      ⊢ iprop((ck2 m K c j k -∗ wp frame (wpE (defs₀ (F := F)) 𝒱₀ (c : Thread nD τ) none) Set.univ (kk (xM.view.readAt (Elt F) (rowRect k).toLoadRect (xs m c))) Q)
          -∗ wp frame (wpE (defs₀ (F := F)) 𝒱₀ (c : Thread nD τ) none) Set.univ (.op (.load xM (rowRect k).toLoadRect hl) kk) Q) := by
  unfold ck2
  iintro ⟨HP, Hx, Hrest⟩ Hk
  iapply (wp_load_rect 𝒱₀ (c : Thread nD τ) none Set.univ (m := xM) (r := rowRect k) (Finset.Subset.refl _)) $$ Hx
  iintro Hx
  iapply Hk
  isplitl [HP]; · iexact HP
  isplitl [Hx]; · iexact Hx
  iexact Hrest

theorem op_lb {hl : bM.view.LoadsAt (rowRect k).toLoadRect}
    {α : Type} {Q : α → sProp 𝕄} {kk : ((rowRect k).toLoadRect.shape.Idx → Elt F .f32) → Prog (TpuEff nD τ sig (Elt F) Λ₀ .tc) α} :
    ck2 m K c j k
      ⊢ iprop((ck2 m K c j k -∗ wp frame (wpE (defs₀ (F := F)) 𝒱₀ (c : Thread nD τ) none) Set.univ (kk (bM.view.readAt (Elt F) (rowRect k).toLoadRect (xs m (xn c)))) Q)
          -∗ wp frame (wpE (defs₀ (F := F)) 𝒱₀ (c : Thread nD τ) none) Set.univ (.op (.load bM (rowRect k).toLoadRect hl) kk) Q) := by
  unfold ck2
  iintro ⟨HP, Hx, Hcs, Hb, Hrest⟩ Hk
  iapply (wp_load_rect 𝒱₀ (c : Thread nD τ) none Set.univ (m := bM) (r := rowRect k) (Finset.Subset.refl _)) $$ Hb
  iintro Hb
  iapply Hk
  isplitl [HP]; · iexact HP
  isplitl [Hx]; · iexact Hx
  isplitl [Hcs]; · iexact Hcs
  isplitl [Hb]; · iexact Hb
  iexact Hrest

theorem op_lr {hl : rM.view.LoadsAt (rowRect k).toLoadRect}
    {α : Type} {Q : α → sProp 𝕄} {kk : ((rowRect k).toLoadRect.shape.Idx → Elt F .f32) → Prog (TpuEff nD τ sig (Elt F) Λ₀ .tc) α} :
    ck2 m K c j k
      ⊢ iprop((∀ v, ck2 m K c j k -∗ wp frame (wpE (defs₀ (F := F)) 𝒱₀ (c : Thread nD τ) none) Set.univ (kk v) Q)
          -∗ wp frame (wpE (defs₀ (F := F)) 𝒱₀ (c : Thread nD τ) none) Set.univ (.op (.load rM (rowRect k).toLoadRect hl) kk) Q) := by
  unfold ck2
  iintro ⟨HP, Hx, Hcs, Hb, ⟨%f, Hr⟩, Hrest⟩ Hk
  iapply (wp_load_rect 𝒱₀ (c : Thread nD τ) none Set.univ (m := rM) (r := rowRect k) (Finset.Subset.refl _)) $$ Hr
  iintro Hr
  iapply Hk
  isplitl [HP]; · iexact HP
  isplitl [Hx]; · iexact Hx
  isplitl [Hcs]; · iexact Hcs
  isplitl [Hb]; · iexact Hb
  isplitl [Hr]; · iexists f; iexact Hr
  iexact Hrest

theorem op_st (w : (rowRect k).shape.Idx → Elt F .f32)
    (hw : w = payAdd (xM.view.readAt (Elt F) (rowRect k).toLoadRect (xs m c)) (bM.view.readAt (Elt F) (rowRect k).toLoadRect (xs m (xn c))))
    {hx : (rM.access (rowRect k)).Stores Finset.univ} {hm : (Finset.univ : Finset (rowRect k).shape.Idx) = Finset.univ ∨ ∀ a, (rowRect k).stride a = 1}
    {α : Type} {Q : α → sProp 𝕄} {kk : PUnit → Prog (TpuEff nD τ sig (Elt F) Λ₀ .tc) α} :
    ck2 m K c j k
      ⊢ iprop((ck3 m K c j k -∗ wp frame (wpE (defs₀ (F := F)) 𝒱₀ (c : Thread nD τ) none) Set.univ (kk ⟨⟩) Q)
          -∗ wp frame (wpE (defs₀ (F := F)) 𝒱₀ (c : Thread nD τ) none) Set.univ (.op (.store rM (rowRect k) w Finset.univ hx hm) kk) Q) := by
  subst hw
  unfold ck2 ck3
  iintro ⟨HP, Hx, Hcs, Hb, ⟨%f, Hr⟩, Hrest⟩ Hk
  iapply (wp_store 𝒱₀ (c : Thread nD τ) none Set.univ (m := rM) (r := rowRect k) (Mk := Finset.univ) (S := (rCh k).view.set) (by
      intro i hi; exact hi)) $$ Hr
  iintro Hr
  ihave Hr' := (Entails.of_eq (store_r m c k f)) $$ Hr
  iapply Hk
  isplitl [HP]; · iexact HP
  isplitl [Hx]; · iexact Hx
  isplitl [Hcs]; · iexact Hcs
  isplitl [Hb]; · iexact Hb
  isplitl [Hr']; · iexact Hr'
  iexact Hrest

/-- Three loads and the store of own rows plus landed rows: one step, from the rows landed to the sum stored. -/
theorem op_sum {hlx : xM.view.LoadsAt (rowRect k).toLoadRect} {hlb : bM.view.LoadsAt (rowRect k).toLoadRect}
    {hlr : rM.view.LoadsAt (rowRect k).toLoadRect}
    (w : ((rowRect k).toLoadRect.shape.Idx → Elt F .f32) → ((rowRect k).toLoadRect.shape.Idx → Elt F .f32) → ((rowRect k).toLoadRect.shape.Idx → Elt F .f32) → (rowRect k).shape.Idx → Elt F .f32)
    (hw : ∀ vr, w (xM.view.readAt (Elt F) (rowRect k).toLoadRect (xs m c)) (bM.view.readAt (Elt F) (rowRect k).toLoadRect (xs m (xn c))) vr
      = payAdd (xM.view.readAt (Elt F) (rowRect k).toLoadRect (xs m c)) (bM.view.readAt (Elt F) (rowRect k).toLoadRect (xs m (xn c))))
    {hx : (rM.access (rowRect k)).Stores Finset.univ} {hm : (Finset.univ : Finset (rowRect k).shape.Idx) = Finset.univ ∨ ∀ a, (rowRect k).stride a = 1}
    {α : Type} {Q : α → sProp 𝕄} {kk : PUnit → Prog (TpuEff nD τ sig (Elt F) Λ₀ .tc) α} :
    ck2 m K c j k
      ⊢ iprop((ck3 m K c j k -∗ wp frame (wpE (defs₀ (F := F)) 𝒱₀ (c : Thread nD τ) none) Set.univ (kk ⟨⟩) Q)
          -∗ wp frame (wpE (defs₀ (F := F)) 𝒱₀ (c : Thread nD τ) none) Set.univ
              (.op (.load xM (rowRect k).toLoadRect hlx) fun vx => .op (.load bM (rowRect k).toLoadRect hlb) fun vb =>
                .op (.load rM (rowRect k).toLoadRect hlr) fun vr => .op (.store rM (rowRect k) (w vx vb vr) Finset.univ hx hm) kk) Q) := by
  iintro C Hk
  iapply (op_lx m K c j k) $$ C
  iintro C
  iapply (op_lb m K c j k) $$ C
  iintro C
  iapply (op_lr m K c j k) $$ C
  iintro %vr C
  iapply (op_st m K c j k _ (hw vr)) $$ C
  iexact Hk

end Ops

end Cert.KernelIdeal.Coll

end
-- ==== Proof.KI.Ops2.lean ====
import proofs.«900269_g7700000000000270_dist_redx_gaty_m2048_n1024_v7x_xy2x2_f32_1_alg».proof.Proof.KI.Chunk
import proofs.«900269_g7700000000000270_dist_redx_gaty_m2048_n1024_v7x_xy2x2_f32_1_alg».proof.Proof.KI.Waits

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Ops
variable (K : KIx → ℕ) (c : Dev nD) (j : Fin 2) (k : Fin 32)

theorem rg2_rest_s1 : bigSep ((Rd (F := F) m).duties (dcell c .s1 k) 0 \ ∅) (fun d => (Rd (F := F) m).payload (dcell c .s1 k) 0 d)
    = pts c (xCh k) fullShare.left (xs m c) := rest_d m c .s1 k
theorem rg2_rest_s2 : bigSep ((Rd (F := F) m).duties (dcell c .s2 k) 0 \ ∅) (fun d => (Rd (F := F) m).payload (dcell c .s2 k) 0 d)
    = pts c (rCh k) fullShare.right (red m c) := rest_d m c .s2 k
theorem rg2_rest_cp : bigSep ((Rd (F := F) m).duties (dcell c .cp k) 0 \ ∅) (fun d => (Rd (F := F) m).payload (dcell c .cp k) 0 d)
    = iprop(pts c (oCh (col c) k) fullShare (outv m c) ∗ pts c (rCh k) fullShare.left (red m c)) := rest_d m c .cp k
theorem rg2_rest_r2 : bigSep ((Rd (F := F) m).duties (dcell c .r2 k) 0 \ ∅) (fun d => (Rd (F := F) m).payload (dcell c .r2 k) 0 d)
    = pts c (oCh (1 - col c) k) fullShare (outv m c) := rest_d m c .r2 k

theorem op_cp (hj : col c = j)
    {hsrc : (rCh k).view.WordExact} {hdst : (oCh j k).view.WordExact}
    {hsem : DmaTarget.Typed (nD := nD) .vmem (.dma (dsem .cp k)) (DmaTarget.here (p := (Proc.tc : Proc τ)) (oCh j k))}
    {α : Type} {Q : α → sProp 𝕄} {kk : PUnit → Prog (TpuEff nD τ sig (Elt F) Λ₀ .tc) α} :
    ck3 m K c j k
      ⊢ iprop((ck4 m K c j k -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rCh k) (DmaTarget.here (p := (Proc.tc : Proc τ)) (oCh j k)) (.dma (dsem .cp k)) hsrc hdst hsem) kk) Q) := by
  subst hj
  have hcd : c = colDev c (col c) := by unfold colDev; rw [if_pos rfl]
  unfold ck3 ck4
  iintro ⟨⟨#HR, #Hlev⟩, Hx, Hc1, Hb, Hr, Ho, Hp, Hat, Ht2, Hs2, Hcp, Hc2⟩ Hk
  ihave Hr2 := (Entails.of_eq (pts_halves c (rCh k) (red m c))) $$ Hr
  icases Hr2 with ⟨HrL, HrR⟩
  ihave #HI := (inv_at m K (c, some (.cp, k))) $$ HR
  ihave #HRc := (reached_at m K (c, some (.cp, k))) $$ HR
  iapply (Rounds.wp_copy_pointsTo 𝒱₀ ER (Rd m) (c : Thread nD τ) none (κ := K (c, some (.cp, k)))
      (src := rCh k) (dst := oCh (col c) k) (sem := .dma (dsem .cp k))
      (r := 0) (d := false) (q := fullShare.left) (fs := red m c) (fd := m ((c : Thread nD τ).loc main_v1))
      (by rw [duties_d]; exact Finset.mem_singleton_self _) () N rfl (amount_d m c .cp k false)
      (by rw [payload_d, show dpay m .cp c k = iprop(pts c (oCh (col c) k) fullShare (outv m c) ∗ pts c (rCh k) fullShare.left (red m c)) from rfl]
          show iprop(pts c (oCh (col c) k) fullShare ((oCh (col c) k).view.write (Elt F) (m ((c : Thread nD τ).loc main_v1)) ((rCh k).view.read (Elt F) (red m c)) Finset.univ)
              ∗ pts c (rCh k) fullShare.left (red m c))
            ⊢ iprop(pts c (oCh (col c) k) fullShare (outv m c) ∗ pts c (rCh k) fullShare.left (red m c))
          rw [land_o m c c (col c) k hcd]))
    $$ [HrL Ho Hcp]
  · isplitr; · iexact HI
    isplitl [HrL]; · iexact HrL
    isplitl [Ho]; · iexact Ho
    isplitl [Hcp]; · iexact Hcp
    iexact HRc
  iintro HcC
  iapply Hk
  isplitr
  · isplitr; · iexact HR
    iexact Hlev
  isplitl [Hx]; · iexact Hx
  isplitl [Hc1]; · iexact Hc1
  isplitl [Hb]; · iexact Hb
  isplitl [HrR]; · iexact HrR
  isplitl [HcC]; · iexact HcC
  isplitl [Hp]; · iexact Hp
  isplitl [Hat]; · iexact Hat
  isplitl [Ht2]; · iexact Ht2
  isplitl [Hs2]; · iexact Hs2
  iexact Hc2

theorem rg2_col_back (c : Dev nD) : 1 - col (yn c) = col c := by revert c; decide
theorem rg2_colDev_yn (c : Dev nD) : c = colDev (yn c) (col c) := by revert c; decide

theorem op_s2 (a a' : ℕ) (ha : a = k.val) (ha' : a' = k.val + 1) (hj : col c = j) (n : Dev nD) (hn : n = yn c)
    {hsc : ((oCh j k : Memref sig (Dev.tc n : Thread nD τ).2.kind .hbm S64x1024 .f32)).view.ref.isScScratch = false}
    {hsrc : (rCh k).view.WordExact} {hdst : (oCh j k).view.WordExact}
    {hsem : DmaTarget.Typed .vmem (.dma (dsem .r2 k)) (.remote (Dev.tc n : Thread nD τ) (oCh j k) (.dma (dsem .s2 k)) hsc)}
    {α : Type} {Q : α → sProp 𝕄} {kk : PUnit → Prog (TpuEff nD τ sig (Elt F) Λ₀ .tc) α} :
    iprop(ck4 m K c j k ∗ owesX c (R2 c a))
      ⊢ iprop((iprop(ck5 m K c k ∗ owesX c (R2 c a')) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (rCh k) (.remote (Dev.tc n : Thread nD τ) (oCh j k) (.dma (dsem .s2 k)) hsc) (.dma (dsem .r2 k)) hsrc hdst hsem) kk) Q) := by
  subst ha ha' hn
  subst hj
  unfold ck4 ck5 owesX
  iintro ⟨⟨⟨#HR, #Hlev⟩, Hx, Hc1, Hb, HrR, HcC, Hp, Hat, Ht2, Hs2, Hc2⟩, ⟨%W, HO⟩⟩ Hk
  ihave #HIs := (inv_at m K (c, some (.s2, k))) $$ HR
  ihave #HIr := (inv_at m K (yn c, some (.r2, k))) $$ HR
  ihave #HRs := (reached_at m K (c, some (.s2, k))) $$ HR
  ihave #HRr := (reached_at m K (yn c, some (.r2, k))) $$ HR
  iapply (Rounds.wp_send_pointsTo 𝒱₀ ER (Rd m) (c : Thread nD τ) none (κ₁ := K (c, some (.s2, k))) (κ₂ := K (yn c, some (.r2, k)))
      (c' := (yn c : Thread nD τ)) (src := rCh k) (dst := oCh (col c) k) (sS := .dma (dsem .s2 k)) (sem := .dma (dsem .r2 k))
      (r₁ := 0) (r₂ := 0) (d₁ := false) (d₂ := false) (fd := m ((yn c : Thread nD τ).loc main_v1)) (q := fullShare.right) (fs := red m c)
      (O₀ := R2 c k.val)
      (by rw [duties_d]; exact Finset.mem_singleton_self _) (by rw [duties_d]; exact Finset.mem_singleton_self _)
      () () N rfl (amount_d m c .s2 k false) (amount_d m (yn c) .r2 k false) (R2 c (k.val + 1))
      (by rw [R2_succ c k]; rfl : R2 c k.val = _) (W := W)
      (by rw [payload_d, show dpay m .s2 c k = pts c (rCh k) fullShare.right (red m c) from rfl])
      (by rw [payload_d, show dpay m .r2 (yn c) k = pts (yn c) (oCh (1 - col (yn c)) k) fullShare (outv m (yn c)) from rfl]
          rw [rg2_col_back c]
          exact Entails.of_eq (land_o m c (yn c) (col c) k (rg2_colDev_yn c) (m ((yn c : Thread nD τ).loc main_v1)))))
    $$ [HrR Hp HO Hs2 Ht2]
  · isplitr; · iexact HIs
    isplitr; · iexact HIr
    isplitl [HrR]; · iexact HrR
    isplitl [Hp]; · iexact Hp
    isplitl [HO]; · iexact HO
    isplitl [Hs2]; · iexact Hs2
    isplitr; · iexact HRs
    isplitl [Ht2]; · iexact Ht2
    iexact HRr
  iintro ⟨HcS, HO⟩
  iapply Hk
  isplitr [HO]
  · isplitr
    · isplitr; · iexact HR
      iexact Hlev
    isplitl [Hx]; · iexact Hx
    isplitl [Hc1]; · iexact Hc1
    isplitl [Hb]; · iexact Hb
    isplitl [HcC]; · iexact HcC
    isplitl [HcS]; · iexact HcS
    isplitl [Hat]; · iexact Hat
    iexact Hc2
  · iexists W; iexact HO

theorem op_ws1 {sp' : Space} {s' : Shape} {e' : EltTy} {src : Memref sig .tc sp' s' e'}
    {hsrc : src.view.WordExact} {hdst : (xCh k).view.WordExact}
    {α : Type} {Q : α → sProp 𝕄} {kk : PUnit → Prog (TpuEff nD τ sig (Elt F) Λ₀ .tc) α} :
    iprop(ck5 m K c k ∗ owesX c 0)
      ⊢ iprop((iprop(ck6 m K c k ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem .s1 k) src (xCh k) hsrc hdst) kk) Q) := by
  unfold ck5 ck6 owesX
  iintro ⟨⟨⟨#HR, #Hlev⟩, HxR, Hc1, Hb, HcC, HcS, Hat, Hc2⟩, ⟨%W, HO⟩⟩ Hk
  icases Hat with ⟨Ha, Hb1, Ha2, Hb2, Hacp⟩
  ihave #HI := (inv_at m K (c, some (.s1, k))) $$ HR
  iapply (Rounds.wp_wait_rest_token 𝒱₀ ER (Rd m) (c : Thread nD τ) none (κ := K (c, some (.s1, k)))
      (wpE_waitDma2_eq 𝒱₀ (c : Thread nD τ) none Set.univ) (Set.mem_univ _) () (O := 0) (W := W) (R := 0) (m := 0) (T := ∅)
      (by rw [Nat.zero_add, expect_d]; rfl)) $$ [Hc1 HO Ha]
  · isplitr; · iexact HI
    isplitl [Hc1]; · iexact Hc1
    isplitl [HO]; · iexact HO
    isplitr; · rw [MayWait_zero]; iempintro
    iexact Ha
  iintro ⟨HO, Ha, -, Hpay⟩
  ihave Hpay := (Entails.of_eq (rg2_rest_s1 m c k)) $$ Hpay
  ihave Hx := (Entails.of_eq (pts_halves c (xCh k) (xs m c)).symm) $$ [Hpay HxR]
  · isplitl [Hpay]; · iexact Hpay
    iexact HxR
  iapply Hk
  isplitr [HO]
  · isplitr
    · isplitr; · iexact HR
      iexact Hlev
    isplitl [Hx]; · iexact Hx
    isplitl [Hb]; · iexact Hb
    isplitl [HcC]; · iexact HcC
    isplitl [HcS]; · iexact HcS
    isplitl [Ha Hb1 Ha2 Hb2 Hacp]
    · isplitl [Ha]; · iexact Ha
      isplitl [Hb1]; · iexact Hb1
      isplitl [Ha2]; · iexact Ha2
      isplitl [Hb2]; · iexact Hb2
      iexact Hacp
    iexact Hc2
  · iexists (insert (SemLoc.dma (dsem .s1 k), ()) W); iexact HO

theorem op_wcp (hj : col c = j) {sp' : Space} {s' : Shape} {e' : EltTy} {src : Memref sig .tc sp' s' e'}
    {hsrc : src.view.WordExact} {hdst : (oCh j k).view.WordExact}
    {α : Type} {Q : α → sProp 𝕄} {kk : PUnit → Prog (TpuEff nD τ sig (Elt F) Λ₀ .tc) α} :
    iprop(ck6 m K c k ∗ owesX c 0)
      ⊢ iprop((iprop(ck7 m K c j k ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem .cp k) src (oCh j k) hsrc hdst) kk) Q) := by
  subst hj
  unfold ck6 ck7 owesX
  iintro ⟨⟨⟨#HR, #Hlev⟩, Hx, Hb, HcC, HcS, Hat, Hc2⟩, ⟨%W, HO⟩⟩ Hk
  icases Hat with ⟨Ha1, Hb1, Ha2, Hb2, Ha⟩
  ihave #HI := (inv_at m K (c, some (.cp, k))) $$ HR
  iapply (Rounds.wp_wait_rest_token 𝒱₀ ER (Rd m) (c : Thread nD τ) none (κ := K (c, some (.cp, k)))
      (wpE_waitDma2_eq 𝒱₀ (c : Thread nD τ) none Set.univ) (Set.mem_univ _) () (O := 0) (W := W) (R := 0) (m := 0) (T := ∅)
      (by rw [Nat.zero_add, expect_d]; rfl)) $$ [HcC HO Ha]
  · isplitr; · iexact HI
    isplitl [HcC]; · iexact HcC
    isplitl [HO]; · iexact HO
    isplitr; · rw [MayWait_zero]; iempintro
    iexact Ha
  iintro ⟨HO, Ha, -, Hpay⟩
  ihave Hpay := (Entails.of_eq (rg2_rest_cp m c k)) $$ Hpay
  icases Hpay with ⟨Ho, HrL⟩
  iapply Hk
  isplitr [HO]
  · isplitr
    · isplitr; · iexact HR
      iexact Hlev
    isplitl [Hx]; · iexact Hx
    isplitl [Hb]; · iexact Hb
    isplitl [Ho]; · iexact Ho
    isplitl [HrL]; · iexact HrL
    isplitl [HcS]; · iexact HcS
    isplitl [Ha1 Hb1 Ha2 Hb2 Ha]
    · isplitl [Ha1]; · iexact Ha1
      isplitl [Hb1]; · iexact Hb1
      isplitl [Ha2]; · iexact Ha2
      isplitl [Hb2]; · iexact Hb2
      iexact Ha
    iexact Hc2
  · iexists (insert (SemLoc.dma (dsem .cp k), ()) W); iexact HO

theorem op_ws2 {sp' : Space} {s' : Shape} {e' : EltTy} {src : Memref sig .tc sp' s' e'}
    {hsrc : src.view.WordExact} {hdst : (rCh k).view.WordExact}
    {α : Type} {Q : α → sProp 𝕄} {kk : PUnit → Prog (TpuEff nD τ sig (Elt F) Λ₀ .tc) α} :
    iprop(ck7 m K c j k ∗ owesX c 0)
      ⊢ iprop((iprop(ck8 m K c j k ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem .s2 k) src (rCh k) hsrc hdst) kk) Q) := by
  unfold ck7 ck8 owesX
  iintro ⟨⟨⟨#HR, #Hlev⟩, Hx, Hb, Ho, HrL, HcS, Hat, Hc2⟩, ⟨%W, HO⟩⟩ Hk
  icases Hat with ⟨Ha1, Hb1, Ha, Hb2, Hacp⟩
  ihave #HI := (inv_at m K (c, some (.s2, k))) $$ HR
  iapply (Rounds.wp_wait_rest_token 𝒱₀ ER (Rd m) (c : Thread nD τ) none (κ := K (c, some (.s2, k)))
      (wpE_waitDma2_eq 𝒱₀ (c : Thread nD τ) none Set.univ) (Set.mem_univ _) () (O := 0) (W := W) (R := 0) (m := 0) (T := ∅)
      (by rw [Nat.zero_add, expect_d]; rfl)) $$ [HcS HO Ha]
  · isplitr; · iexact HI
    isplitl [HcS]; · iexact HcS
    isplitl [HO]; · iexact HO
    isplitr; · rw [MayWait_zero]; iempintro
    iexact Ha
  iintro ⟨HO, Ha, -, Hpay⟩
  ihave Hpay := (Entails.of_eq (rg2_rest_s2 m c k)) $$ Hpay
  ihave Hr := (Entails.of_eq (pts_halves c (rCh k) (red m c)).symm) $$ [HrL Hpay]
  · isplitl [HrL]; · iexact HrL
    iexact Hpay
  iapply Hk
  isplitr [HO]
  · isplitr
    · isplitr; · iexact HR
      iexact Hlev
    isplitl [Hx]; · iexact Hx
    isplitl [Hb]; · iexact Hb
    isplitl [Ho]; · iexact Ho
    isplitl [Hr]; · iexact Hr
    isplitl [Ha1 Hb1 Ha Hb2 Hacp]
    · isplitl [Ha1]; · iexact Ha1
      isplitl [Hb1]; · iexact Hb1
      isplitl [Ha]; · iexact Ha
      isplitl [Hb2]; · iexact Hb2
      iexact Hacp
    iexact Hc2
  · iexists (insert (SemLoc.dma (dsem .s2 k), ()) W); iexact HO

theorem op_wr2 (hj : col c = j) {sp' : Space} {s' : Shape} {e' : EltTy} {src : Memref sig .tc sp' s' e'}
    {hsrc : src.view.WordExact} {hdst : (oCh j k).view.WordExact}
    {α : Type} {Q : α → sProp 𝕄} {kk : PUnit → Prog (TpuEff nD τ sig (Elt F) Λ₀ .tc) α} :
    iprop(ck8 m K c j k ∗ owesX c 0)
      ⊢ iprop((iprop(ck9 m K c j k ∗ owesX c 0) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem .r2 k) src (oCh j k) hsrc hdst) kk) Q) := by
  subst hj
  unfold ck8 ck9 owesX
  iintro ⟨⟨⟨#HR, #Hlev⟩, Hx, Hb, Ho, Hr, Hat, Hc2⟩, ⟨%W, HO⟩⟩ Hk
  icases Hat with ⟨Ha1, Hb1, Ha2, Ha, Hacp⟩
  ihave #HI := (inv_at m K (c, some (.r2, k))) $$ HR
  iapply (Rounds.wp_wait_rest_token 𝒱₀ ER (Rd m) (c : Thread nD τ) none (κ := K (c, some (.r2, k)))
      (wpE_waitDma2_eq 𝒱₀ (c : Thread nD τ) none Set.univ) (Set.mem_univ _) () (O := 0) (W := W) (R := 0) (m := 0) (T := ∅)
      (by rw [Nat.zero_add, expect_d]; rfl)) $$ [Hc2 HO Ha]
  · isplitr; · iexact HI
    isplitl [Hc2]; · iexact Hc2
    isplitl [HO]; · iexact HO
    isplitr; · rw [MayWait_zero]; iempintro
    iexact Ha
  iintro ⟨HO, Ha, -, Hpay⟩
  ihave Hpay := (Entails.of_eq (rg2_rest_r2 m c k)) $$ Hpay

  iapply Hk
  isplitr [HO]
  · isplitr
    · isplitr; · iexact HR
      iexact Hlev
    isplitl [Hx]; · iexact Hx
    isplitl [Hb]; · iexact Hb
    isplitl [Ho]; · iexact Ho
    isplitl [Hpay]; · iexact Hpay
    isplitl [Hr]; · iexact Hr
    isplitl [Ha1]; · iexact Ha1
    isplitl [Hb1]; · iexact Hb1
    isplitl [Ha2]; · iexact Ha2
    isplitl [Ha]; · iexact Ha
    iexact Hacp
  · iexists (insert (SemLoc.dma (dsem .r2 k), ()) W); iexact HO

end Ops

end Cert.KernelIdeal.Coll

end
-- ==== Proof.KI.Devs.lean ====
import proofs.«900269_g7700000000000270_dist_redx_gaty_m2048_n1024_v7x_xy2x2_f32_1_alg».proof.Proof.KI.Base

set_option maxRecDepth 65536

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)

theorem xn_val : (xn c).val = ((c.val % 2) + 2) - 2 * (c.val / 2) := by revert c; decide
theorem yn_val : (yn c).val = (2 * (c.val / 2) + 1) - (c.val % 2) := by revert c; decide

/-- A device id whose value is the closed form of the x-neighbour's (of the y-neighbour's) is that neighbour. -/
theorem dev_xn {n : ℕ} {h : n < nD} (e : n = ((c.val % 2) + 2) - 2 * (c.val / 2)) : (⟨n, h⟩ : Dev nD) = xn c :=
  Fin.ext (e.trans (xn_val c).symm)
theorem dev_yn {n : ℕ} {h : n < nD} (e : n = (2 * (c.val / 2) + 1) - (c.val % 2)) : (⟨n, h⟩ : Dev nD) = yn c :=
  Fin.ext (e.trans (yn_val c).symm)

end Cert.KernelIdeal.Coll

end
-- ==== Proof.KI.Glue.lean ====
import proofs.«900269_g7700000000000270_dist_redx_gaty_m2048_n1024_v7x_xy2x2_f32_1_alg».proof.Proof.KI.Chunk

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def entryRes (K : KIx → ℕ) (c : Dev nD) : sProp 𝕄 :=
  iprop(records m K ∗ lin c ∗ levAts L lv
    ∗ (((c : Thread nD τ).loc main_v1) ↦{fullShare} m ((c : Thread nD τ).loc main_v1))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc cc0_stg0_0) ↦{fullShare} xs m c)
    ∗ owesX c (O₀ c))

theorem wp_apply (c : Dev nD) {α : Type} {p : Prog (TpuEff nD τ sig (Elt F) Λ₀ .tc) α} {P : sProp 𝕄} {Q1 Q2 : α → sProp 𝕄}
    (h : P ⊢ wp frame (wpE (defs₀ (F := F)) 𝒱₀ (c : Thread nD τ) none) Set.univ p Q1) :
    P ⊢ iprop((∀ a, Q1 a -∗ Q2 a) -∗ wp frame (wpE (defs₀ (F := F)) 𝒱₀ (c : Thread nD τ) none) Set.univ p Q2) :=
  h.trans (wp_wand _ _ _)

/-- A step stated on a pair of resources takes them, and hands them back, one at a time. -/
theorem cur {A O A' O' W G : sProp 𝕄} (h : iprop(A ∗ O) ⊢ iprop((iprop(A' ∗ O') -∗ W) -∗ G)) :
    A ⊢ iprop(O -∗ (A' -∗ O' -∗ W) -∗ G) := by
  iintro HA HO Hk
  iapply h $$ [HA HO]
  · iframe
  iintro ⟨HA, HO⟩
  iapply Hk $$ HA HO

/-- Run `p` to `Q1`, then the rest from `Q1`: bind, then consequence. -/
theorem seq (c : Dev nD) {α β : Type} {p : Prog (TpuEff nD τ sig (Elt F) Λ₀ .tc) α} {kk : α → Prog (TpuEff nD τ sig (Elt F) Λ₀ .tc) β} {P : sProp 𝕄} {Q1 : α → sProp 𝕄} {Q : β → sProp 𝕄}
    (h : P ⊢ wp frame (wpE (defs₀ (F := F)) 𝒱₀ (c : Thread nD τ) none) Set.univ p Q1) :
    P ⊢ iprop((∀ r, Q1 r -∗ wp frame (wpE (defs₀ (F := F)) 𝒱₀ (c : Thread nD τ) none) Set.univ (kk r) Q) -∗ wp frame (wpE (defs₀ (F := F)) 𝒱₀ (c : Thread nD τ) none) Set.univ (p >>= kk) Q) := by
  rw [wp_bind]; exact wp_apply c h

omit [FloatOps F] in

theorem bigSep_fin32 (Φ : Fin 32 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

end Cert.KernelIdeal.Coll

end
-- ==== Proof.KI.Entry.lean ====
import proofs.«900269_g7700000000000270_dist_redx_gaty_m2048_n1024_v7x_xy2x2_f32_1_alg».proof.Proof.KI.Chunk
import proofs.«900269_g7700000000000270_dist_redx_gaty_m2048_n1024_v7x_xy2x2_f32_1_alg».proof.Proof.KI.Waits

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem split_o_j (c : Dev nD) (j j' : Fin 2) (hcases : (j = 0 ∧ j' = 1) ∨ (j = 1 ∧ j' = 0)) (f : Buf (Elt F) ((c : Thread nD τ).loc main_v1)) :
    ((((c : Thread nD τ).loc main_v1) ↦{fullShare} f) : sProp 𝕄)
      ⊢ iprop((bigSep Finset.univ fun k : Fin 32 => pts c (oCh j k) fullShare f) ∗ (bigSep Finset.univ fun k : Fin 32 => pts c (oCh j' k) fullShare f)) := by
  rw [split_o]
  rcases hcases with ⟨rfl, rfl⟩ | ⟨rfl, rfl⟩
  · exact .rfl
  · iintro ⟨H0, H1⟩
    isplitl [H1] <;> iassumption

theorem col_cases (c : Dev nD) : (col c = 0 ∧ 1 - col c = 1) ∨ (col c = 1 ∧ 1 - col c = 0) := by revert c; decide

section Entry
variable (K : KIx → ℕ) (c : Dev nD) (j : Fin 2)

theorem ck0_intro :
    iprop(pers m K ∗ (bigSep Finset.univ fun k : Fin 32 => X m c k fullShare) ∗ (bigSep Finset.univ fun k : Fin 32 => Bpeer (F := F) c k)
        ∗ (bigSep Finset.univ fun k : Fin 32 => Rany (F := F) c k) ∗ (bigSep Finset.univ fun k : Fin 32 => Oo m c j k)
        ∗ (bigSep Finset.univ fun k : Fin 32 => Pp m c j k) ∗ (bigSep Finset.univ fun k : Fin 32 => chunkTok (F := F) c k))
      ⊢ bigSep Finset.univ fun k : Fin 32 => ck0 m K c j k := by
  have hk : ∀ k ∈ (Finset.univ : Finset (Fin 32)),
      iprop(pers m K ∗ iprop(X m c k fullShare ∗ Bpeer (F := F) c k ∗ Rany (F := F) c k ∗ Oo m c j k ∗ Pp m c j k ∗ chunkTok (F := F) c k))
        ⊢ ck0 m K c j k := fun k _ => by
    unfold ck0 chunkTok
    iintro ⟨#HP, Hx, Hb, Hr, Ho, Hp, Ha1, Ha2, Ha3, Ha4, Ha5, Hrest⟩
    isplitr; · iexact HP
    isplitl [Hx]; · iexact Hx
    isplitl [Hb]; · iexact Hb
    isplitl [Hr]; · iexact Hr
    isplitl [Ho]; · iexact Ho
    isplitl [Hp]; · iexact Hp
    isplitl [Ha1 Ha2 Ha3 Ha4 Ha5]
    · isplitl [Ha1]; · iexact Ha1
      isplitl [Ha2]; · iexact Ha2
      isplitl [Ha3]; · iexact Ha3
      isplitl [Ha4]; · iexact Ha4
      iexact Ha5
    iexact Hrest
  refine .trans ?_ (bigSep_with_persistent (R := pers m K) hk)
  simp only [bigSep_sep']
  exact .rfl

theorem op_barrier (hj : col c = j) (n1 n2 : Dev nD) (hn1 : n1 = xn c) (hn2 : n2 = yn c)
    {α : Type} {Q : α → sProp 𝕄} {kk : PUnit → Prog (TpuEff nD τ sig (Elt F) Λ₀ .tc) α} :
    iprop(records m K ∗ lin c ∗ levAts L lv
        ∗ (((c : Thread nD τ).loc main_v1) ↦{fullShare} m ((c : Thread nD τ).loc main_v1))
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (((c : Thread nD τ).loc cc0_stg0_0) ↦{fullShare} xs m c)
        ∗ owesX c (O₀ c))
      ⊢ iprop((iprop((bigSep Finset.univ fun k : Fin 32 => ck0 m K c j k) ∗ owesX c (R2 c 0 + R1 c 0))
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n1 : Thread nD τ) barS 1) fun _ =>
               .op (.semSignal (Dev.tc n2 : Thread nD τ) barS 1) fun _ =>
               .op (.semWait barS 2) kk) Q) := by
  subst hn1 hn2 hj
  unfold lin owesX
  iintro ⟨#HR, ⟨HaB, HtX, HtY, HcB, Hchunks⟩, #Hlev, Hout, ⟨%fb, Hb⟩, ⟨%fr, Hr⟩, Hx, ⟨%W, HO⟩⟩ Hk
  ihave #HIx := (inv_at m K (xn c, none)) $$ HR
  ihave #HIy := (inv_at m K (yn c, none)) $$ HR
  ihave #HIc := (inv_at m K (c, none)) $$ HR
  ihave #HRx := (reached_at m K (xn c, none)) $$ HR
  ihave #HRy := (reached_at m K (yn c, none)) $$ HR
  have hany_b : (bigSep Finset.univ fun k : Fin 32 => pts c (bCh k) fullShare fb : sProp 𝕄)
      ⊢ bigSep Finset.univ fun k : Fin 32 => iprop(∃ f, pts c (bCh k) fullShare f) :=
    bigSep_mono fun k _ => show (pts c (bCh k) fullShare fb : sProp 𝕄) ⊢ iprop(∃ f, pts c (bCh k) fullShare f) from by
      iintro H; iexists fb; iexact H
  have hany_r : (bigSep Finset.univ fun k : Fin 32 => pts c (rCh k) fullShare fr : sProp 𝕄)
      ⊢ bigSep Finset.univ fun k : Fin 32 => iprop(∃ f, pts c (rCh k) fullShare f) :=
    bigSep_mono fun k _ => show (pts c (rCh k) fullShare fr : sProp 𝕄) ⊢ iprop(∃ f, pts c (rCh k) fullShare f) from by
      iintro H; iexists fr; iexact H
  ihave Hbs := (Entails.of_eq (split_b c fullShare fb)) $$ Hb
  ihave Hos := (split_o_j c (col c) (1 - col c) (col_cases c) (m ((c : Thread nD τ).loc main_v1))) $$ Hout
  icases Hos with ⟨HoJ, HoP⟩

  iapply (Rounds.wp_signal 𝒱₀ ER (Rd m) (c : Thread nD τ) none (dst := (xn c : Thread nD τ)) (sem := barS) (r := 0) (d := false) (k' := 1)
      (κ := K (xn c, none)) (by rw [duties_bar]; exact Finset.mem_univ _) (amount_bar m (xn c) false) () (O₁ c) rfl (W := W)) $$ [HO HtX Hbs]
  · isplitr; · iexact HIx
    isplitl [HO]; · iexact HO
    isplitl [HtX]; · iexact HtX
    isplitl [Hbs]
    · rw [payload_bar_false]; unfold barPayX; rw [xn_xn]
      iapply hany_b; iexact Hbs
    iexact HRx
  iintro HO

  iapply (Rounds.wp_signal 𝒱₀ ER (Rd m) (c : Thread nD τ) none (dst := (yn c : Thread nD τ)) (sem := barS) (r := 0) (d := true) (k' := 1)
      (κ := K (yn c, none)) (by rw [duties_bar]; exact Finset.mem_univ _) (amount_bar m (yn c) true) () (R2 c 0 + R1 c 0) rfl (W := W)) $$ [HO HtY HoP]
  · isplitr; · iexact HIy
    isplitl [HO]; · iexact HO
    isplitl [HtY]; · iexact HtY
    isplitl [HoP]
    · rw [payload_bar_true]; unfold barPayY; rw [yn_yn, col_yn]
      iexact HoP
    iexact HRy
  iintro HO

  iapply (Rounds.wp_wait_rest_token 𝒱₀ ER (Rd m) (c : Thread nD τ) none (κ := K (c, none))
      (wpE_semWait_eq 𝒱₀ (c : Thread nD τ) none Set.univ) (Set.mem_univ _) () (O := R2 c 0 + R1 c 0) (W := W) (R := 0) (m := 0) (T := ∅)
      (by rw [Nat.zero_add, expect_bar])) $$ [HcB HO HaB]
  · isplitr; · iexact HIc
    isplitl [HcB]; · iexact HcB
    isplitl [HO]; · iexact HO
    isplitr; · iapply (mayWait_bar c); iexact Hlev
    iexact HaB
  iintro ⟨HO, -, -, Hpay⟩
  ihave Hp := (Entails.of_eq (rest_bar m c)) $$ Hpay
  icases Hp with ⟨HpX, HpY⟩
  ihave Hxs := (Entails.of_eq (split_x c fullShare (xs m c))) $$ Hx
  ihave Hrs := (Entails.of_eq (split_r c fullShare fr)) $$ Hr
  iapply Hk
  isplitr [HO]
  · iapply (ck0_intro m K c (col c))
    isplitr
    · isplitr; · iexact HR
      iexact Hlev
    isplitl [Hxs]; · iexact Hxs
    isplitl [HpX]; · unfold barPayX; iexact HpX
    isplitl [Hrs]
    · iapply hany_r; iexact Hrs
    isplitl [HoJ]; · iexact HoJ
    isplitl [HpY]; · unfold barPayY; iexact HpY
    iexact Hchunks
  · iexists _; iexact HO

end Entry

end Cert.KernelIdeal.Coll

end
-- ==== Proof.KI.Branch0.lean ====
import proofs.«900269_g7700000000000270_dist_redx_gaty_m2048_n1024_v7x_xy2x2_f32_1_alg».proof.Proof.KI.Ops1
import proofs.«900269_g7700000000000270_dist_redx_gaty_m2048_n1024_v7x_xy2x2_f32_1_alg».proof.Proof.KI.Ops2
import proofs.«900269_g7700000000000270_dist_redx_gaty_m2048_n1024_v7x_xy2x2_f32_1_alg».proof.Proof.KI.Devs
import proofs.«900269_g7700000000000270_dist_redx_gaty_m2048_n1024_v7x_xy2x2_f32_1_alg».proof.Proof.KI.Glue

set_option maxRecDepth 65536

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KIx → ℕ) (c : Dev nD)

set_option maxHeartbeats 8000000 in
/-- The pipeline of column half 0: every chunk goes from its first-stage copy issued to its sum copied and sent; all but the last are then waited to the end. -/
theorem run_part60 (hj : col c = 0) (v2 : BitVec 32) (v5 : BitVec 32) (v17 : BitVec 32) (v28 : BitVec 32) (v39 : BitVec 32) (v50 : BitVec 32) (v61 : BitVec 32) (v72 : BitVec 32) (v83 : BitVec 32) (v94 : BitVec 32) (v105 : BitVec 32) (v116 : BitVec 32) (v127 : BitVec 32) (v138 : BitVec 32) (v149 : BitVec 32) (v160 : BitVec 32) (v171 : BitVec 32) (v182 : BitVec 32) (v193 : BitVec 32) (v204 : BitVec 32) (v215 : BitVec 32) (v226 : BitVec 32) (v237 : BitVec 32) (v248 : BitVec 32) (v259 : BitVec 32) (v270 : BitVec 32) (v281 : BitVec 32) (v292 : BitVec 32) (v303 : BitVec 32) (v314 : BitVec 32) (v325 : BitVec 32) (v336 : BitVec 32) (v347 : BitVec 32) (v358 : BitVec 32) (k0_h1 : k0_cond1 c = 1#1) :
    iprop(ck1 m K c 0 0 ∗ ck1 m K c 0 1 ∗ ck1 m K c 0 2 ∗ ck1 m K c 0 3 ∗ ck1 m K c 0 4 ∗ ck1 m K c 0 5 ∗ ck1 m K c 0 6 ∗ ck1 m K c 0 7 ∗ ck1 m K c 0 8 ∗ ck1 m K c 0 9 ∗ ck1 m K c 0 10 ∗ ck1 m K c 0 11 ∗ ck1 m K c 0 12 ∗ ck1 m K c 0 13 ∗ ck1 m K c 0 14 ∗ ck1 m K c 0 15 ∗ ck1 m K c 0 16 ∗ ck1 m K c 0 17 ∗ ck1 m K c 0 18 ∗ ck1 m K c 0 19 ∗ ck1 m K c 0 20 ∗ ck1 m K c 0 21 ∗ ck1 m K c 0 22 ∗ ck1 m K c 0 23 ∗ ck1 m K c 0 24 ∗ ck1 m K c 0 25 ∗ ck1 m K c 0 26 ∗ ck1 m K c 0 27 ∗ ck1 m K c 0 28 ∗ ck1 m K c 0 29 ∗ ck1 m K c 0 30 ∗ ck1 m K c 0 31 ∗ owesX c (R2 c 0))
      ⊢ wp frame (wpE (defs₀ (F := F)) 𝒱₀ (c : Thread nD τ) none) Set.univ (atBufs k0_part60 c v2 v5 v17 v28 v39 v50 v61 v72 v83 v94 v105 v116 v127 v138 v149 v160 v171 v182 v193 v204 v215 v226 v237 v248 v259 v270 v281 v292 v303 v314 v325 v336 v347 v358 k0_h1)
          (fun _ => iprop(ck9 m K c 0 0 ∗ ck9 m K c 0 1 ∗ ck9 m K c 0 2 ∗ ck9 m K c 0 3 ∗ ck9 m K c 0 4 ∗ ck9 m K c 0 5 ∗ ck9 m K c 0 6 ∗ ck9 m K c 0 7 ∗ ck9 m K c 0 8 ∗ ck9 m K c 0 9 ∗ ck9 m K c 0 10 ∗ ck9 m K c 0 11 ∗ ck9 m K c 0 12 ∗ ck9 m K c 0 13 ∗ ck9 m K c 0 14 ∗ ck9 m K c 0 15 ∗ ck9 m K c 0 16 ∗ ck9 m K c 0 17 ∗ ck9 m K c 0 18 ∗ ck9 m K c 0 19 ∗ ck9 m K c 0 20 ∗ ck9 m K c 0 21 ∗ ck9 m K c 0 22 ∗ ck9 m K c 0 23 ∗ ck9 m K c 0 24 ∗ ck9 m K c 0 25 ∗ ck9 m K c 0 26 ∗ ck9 m K c 0 27 ∗ ck9 m K c 0 28 ∗ ck9 m K c 0 29 ∗ ck9 m K c 0 30 ∗ ck5 m K c 31 ∗ owesX c 0)) := by
  rw [k0_part60_eq_skeleton]; unfold atBufs k0_part60_skel
  simp only [Prog.lift, Prog.bind_op, Prog.bind_ret, Prog.pure_eq_ret]
  iintro ⟨C0, C1, C2, C3, C4, C5, C6, C7, C8, C9, C10, C11, C12, C13, C14, C15, C16, C17, C18, C19, C20, C21, C22, C23, C24, C25, C26, C27, C28, C29, C30, C31, HO⟩
  rw [wp_bind, k0_part1_eq_skeleton]; unfold k0_part1_skel
  simp only [Prog.lift, Prog.bind_op, Prog.bind_ret, Prog.pure_eq_ret]
  iapply (cur (op_w1 m K c 0 0 0)) $$ C0 HO
  iintro C0 HO
  iapply (op_sum m K c 0 0 _ fun _ => rfl) $$ C0
  iintro C0
  iapply (op_cp m K c 0 0 hj) $$ C0
  iintro C0
  rw [wp_ret]; imodintro
  rw [wp_bind, k0_part2_eq_skeleton]; unfold k0_part2_skel
  simp only [Prog.lift, Prog.bind_op, Prog.bind_ret, Prog.pure_eq_ret]
  iapply (cur (op_s2 m K c 0 0 0 1 rfl rfl hj _ (dev_yn c (k0_dev35_eq c)))) $$ C0 HO
  iintro C0 HO
  iapply (cur (op_w1 m K c 0 1 1)) $$ C1 HO
  iintro C1 HO
  iapply (op_sum m K c 0 1 _ fun _ => rfl) $$ C1
  iintro C1
  iapply (op_cp m K c 0 1 hj) $$ C1
  iintro C1
  rw [wp_ret]; imodintro
  rw [wp_bind, k0_part3_eq_skeleton]; unfold k0_part3_skel
  simp only [Prog.lift, Prog.bind_op, Prog.bind_ret, Prog.pure_eq_ret]
  iapply (cur (op_s2 m K c 0 1 1 2 rfl rfl hj _ (dev_yn c (k0_dev36_eq c)))) $$ C1 HO
  iintro C1 HO
  iapply (cur (op_w1 m K c 0 2 2)) $$ C2 HO
  iintro C2 HO
  iapply (op_sum m K c 0 2 _ fun _ => rfl) $$ C2
  iintro C2
  iapply (op_cp m K c 0 2 hj) $$ C2
  iintro C2
  rw [wp_ret]; imodintro
  rw [wp_bind, k0_part4_eq_skeleton]; unfold k0_part4_skel
  simp only [Prog.lift, Prog.bind_op, Prog.bind_ret, Prog.pure_eq_ret]
  iapply (cur (op_s2 m K c 0 2 2 3 rfl rfl hj _ (dev_yn c (k0_dev37_eq c)))) $$ C2 HO
  iintro C2 HO
  iapply (cur (op_w1 m K c 0 3 3)) $$ C3 HO
  iintro C3 HO
  iapply (op_sum m K c 0 3 _ fun _ => rfl) $$ C3
  iintro C3
  iapply (op_cp m K c 0 3 hj) $$ C3
  iintro C3
  rw [wp_ret]; imodintro
  rw [wp_bind, k0_part5_eq_skeleton]; unfold k0_part5_skel
  simp only [Prog.lift, Prog.bind_op, Prog.bind_ret, Prog.pure_eq_ret]
  iapply (cur (op_s2 m K c 0 3 3 4 rfl rfl hj _ (dev_yn c (k0_dev38_eq c)))) $$ C3 HO
  iintro C3 HO
  iapply (cur (op_w1 m K c 0 4 4)) $$ C4 HO
  iintro C4 HO
  iapply (op_sum m K c 0 4 _ fun _ => rfl) $$ C4
  iintro C4
  iapply (op_cp m K c 0 4 hj) $$ C4
  iintro C4
  rw [wp_ret]; imodintro
  rw [wp_bind, k0_part6_eq_skeleton]; unfold k0_part6_skel
  simp only [Prog.lift, Prog.bind_op, Prog.bind_ret, Prog.pure_eq_ret]
  iapply (cur (op_s2 m K c 0 4 4 5 rfl rfl hj _ (dev_yn c (k0_dev39_eq c)))) $$ C4 HO
  iintro C4 HO
  iapply (cur (op_w1 m K c 0 5 5)) $$ C5 HO
  iintro C5 HO
  iapply (op_sum m K c 0 5 _ fun _ => rfl) $$ C5
  iintro C5
  iapply (op_cp m K c 0 5 hj) $$ C5
  iintro C5
  rw [wp_ret]; imodintro
  rw [wp_bind, k0_part7_eq_skeleton]; unfold k0_part7_skel
  simp only [Prog.lift, Prog.bind_op, Prog.bind_ret, Prog.pure_eq_ret]
  iapply (cur (op_s2 m K c 0 5 5 6 rfl rfl hj _ (dev_yn c (k0_dev40_eq c)))) $$ C5 HO
  iintro C5 HO
  iapply (cur (op_w1 m K c 0 6 6)) $$ C6 HO
  iintro C6 HO
  iapply (op_sum m K c 0 6 _ fun _ => rfl) $$ C6
  iintro C6
  iapply (op_cp m K c 0 6 hj) $$ C6
  iintro C6
  rw [wp_ret]; imodintro
  rw [wp_bind, k0_part8_eq_skeleton]; unfold k0_part8_skel
  simp only [Prog.lift, Prog.bind_op, Prog.bind_ret, Prog.pure_eq_ret]
  iapply (cur (op_s2 m K c 0 6 6 7 rfl rfl hj _ (dev_yn c (k0_dev41_eq c)))) $$ C6 HO
  iintro C6 HO
  iapply (cur (op_w1 m K c 0 7 7)) $$ C7 HO
  iintro C7 HO
  iapply (op_sum m K c 0 7 _ fun _ => rfl) $$ C7
  iintro C7
  iapply (op_cp m K c 0 7 hj) $$ C7
  iintro C7
  rw [wp_ret]; imodintro
  rw [wp_bind, k0_part9_eq_skeleton]; unfold k0_part9_skel
  simp only [Prog.lift, Prog.bind_op, Prog.bind_ret, Prog.pure_eq_ret]
  iapply (cur (op_s2 m K c 0 7 7 8 rfl rfl hj _ (dev_yn c (k0_dev42_eq c)))) $$ C7 HO
  iintro C7 HO
  iapply (cur (op_w1 m K c 0 8 8)) $$ C8 HO
  iintro C8 HO
  iapply (op_sum m K c 0 8 _ fun _ => rfl) $$ C8
  iintro C8
  iapply (op_cp m K c 0 8 hj) $$ C8
  iintro C8
  rw [wp_ret]; imodintro
  rw [wp_bind, k0_part10_eq_skeleton]; unfold k0_part10_skel
  simp only [Prog.lift, Prog.bind_op, Prog.bind_ret, Prog.pure_eq_ret]
  iapply (cur (op_s2 m K c 0 8 8 9 rfl rfl hj _ (dev_yn c (k0_dev43_eq c)))) $$ C8 HO
  iintro C8 HO
  iapply (cur (op_w1 m K c 0 9 9)) $$ C9 HO
  iintro C9 HO
  iapply (op_sum m K c 0 9 _ fun _ => rfl) $$ C9
  iintro C9
  iapply (op_cp m K c 0 9 hj) $$ C9
  iintro C9
  rw [wp_ret]; imodintro
  rw [wp_bind, k0_part11_eq_skeleton]; unfold k0_part11_skel
  simp only [Prog.lift, Prog.bind_op, Prog.bind_ret, Prog.pure_eq_ret]
  iapply (cur (op_s2 m K c 0 9 9 10 rfl rfl hj _ (dev_yn c (k0_dev44_eq c)))) $$ C9 HO
  iintro C9 HO
  iapply (cur (op_w1 m K c 0 10 10)) $$ C10 HO
  iintro C10 HO
  iapply (op_sum m K c 0 10 _ fun _ => rfl) $$ C10
  iintro C10
  iapply (op_cp m K c 0 10 hj) $$ C10
  iintro C10
  rw [wp_ret]; imodintro
  rw [wp_bind, k0_part12_eq_skeleton]; unfold k0_part12_skel
  simp only [Prog.lift, Prog.bind_op, Prog.bind_ret, Prog.pure_eq_ret]
  iapply (cur (op_s2 m K c 0 10 10 11 rfl rfl hj _ (dev_yn c (k0_dev45_eq c)))) $$ C10 HO
  iintro C10 HO
  iapply (cur (op_w1 m K c 0 11 11)) $$ C11 HO
  iintro C11 HO
  iapply (op_sum m K c 0 11 _ fun _ => rfl) $$ C11
  iintro C11
  rw [wp_ret]; imodintro
  rw [wp_bind, k0_part13_eq_skeleton]; unfold k0_part13_skel
  simp only [Prog.lift, Prog.bind_op, Prog.bind_ret, Prog.pure_eq_ret]
  iapply (op_cp m K c 0 11 hj) $$ C11
  iintro C11
  iapply (cur (op_s2 m K c 0 11 11 12 rfl rfl hj _ (dev_yn c (k0_dev46_eq c)))) $$ C11 HO
  iintro C11 HO
  iapply (cur (op_w1 m K c 0 12 12)) $$ C12 HO
  iintro C12 HO
  iapply (op_sum m K c 0 12 _ fun _ => rfl) $$ C12
  iintro C12
  rw [wp_ret]; imodintro
  rw [wp_bind, k0_part14_eq_skeleton]; unfold k0_part14_skel
  simp only [Prog.lift, Prog.bind_op, Prog.bind_ret, Prog.pure_eq_ret]
  iapply (op_cp m K c 0 12 hj) $$ C12
  iintro C12
  iapply (cur (op_s2 m K c 0 12 12 13 rfl rfl hj _ (dev_yn c (k0_dev47_eq c)))) $$ C12 HO
  iintro C12 HO
  iapply (cur (op_w1 m K c 0 13 13)) $$ C13 HO
  iintro C13 HO
  iapply (op_sum m K c 0 13 _ fun _ => rfl) $$ C13
  iintro C13
  rw [wp_ret]; imodintro
  rw [wp_bind, k0_part15_eq_skeleton]; unfold k0_part15_skel
  simp only [Prog.lift, Prog.bind_op, Prog.bind_ret, Prog.pure_eq_ret]
  iapply (op_cp m K c 0 13 hj) $$ C13
  iintro C13
  iapply (cur (op_s2 m K c 0 13 13 14 rfl rfl hj _ (dev_yn c (k0_dev48_eq c)))) $$ C13 HO
  iintro C13 HO
  iapply (cur (op_w1 m K c 0 14 14)) $$ C14 HO
  iintro C14 HO
  iapply (op_sum m K c 0 14 _ fun _ => rfl) $$ C14
  iintro C14
  rw [wp_ret]; imodintro
  rw [wp_bind, k0_part16_eq_skeleton]; unfold k0_part16_skel
  simp only [Prog.lift, Prog.bind_op, Prog.bind_ret, Prog.pure_eq_ret]
  iapply (op_cp m K c 0 14 hj) $$ C14
  iintro C14
  iapply (cur (op_s2 m K c 0 14 14 15 rfl rfl hj _ (dev_yn c (k0_dev49_eq c)))) $$ C14 HO
  iintro C14 HO
  iapply (cur (op_w1 m K c 0 15 15)) $$ C15 HO
  iintro C15 HO
  iapply (op_sum m K c 0 15 _ fun _ => rfl) $$ C15
  iintro C15
  rw [wp_ret]; imodintro
  rw [wp_bind, k0_part17_eq_skeleton]; unfold k0_part17_skel
  simp only [Prog.lift, Prog.bind_op, Prog.bind_ret, Prog.pure_eq_ret]
  iapply (op_cp m K c 0 15 hj) $$ C15
  iintro C15
  iapply (cur (op_s2 m K c 0 15 15 16 rfl rfl hj _ (dev_yn c (k0_dev50_eq c)))) $$ C15 HO
  iintro C15 HO
  iapply (cur (op_w1 m K c 0 16 16)) $$ C16 HO
  iintro C16 HO
  iapply (op_lx m K c 0 16) $$ C16
  iintro C16
  iapply (op_lb m K c 0 16) $$ C16
  iintro C16
  iapply (op_lr m K c 0 16) $$ C16
  iintro %vr16 C16
  rw [wp_ret]; imodintro
  rw [wp_bind, k0_part18_eq_skeleton]; unfold k0_part18_skel
  simp only [Prog.lift, Prog.bind_op, Prog.bind_ret, Prog.pure_eq_ret]
  iapply (op_st m K c 0 16 _ rfl) $$ C16
  iintro C16
  iapply (op_cp m K c 0 16 hj) $$ C16
  iintro C16
  iapply (cur (op_s2 m K c 0 16 16 17 rfl rfl hj _ (dev_yn c (k0_dev51_eq c)))) $$ C16 HO
  iintro C16 HO
  iapply (cur (op_w1 m K c 0 17 17)) $$ C17 HO
  iintro C17 HO
  iapply (op_lx m K c 0 17) $$ C17
  iintro C17
  iapply (op_lb m K c 0 17) $$ C17
  iintro C17
  rw [wp_ret]; imodintro
  rw [wp_bind, k0_part19_eq_skeleton]; unfold k0_part19_skel
  simp only [Prog.lift, Prog.bind_op, Prog.bind_ret, Prog.pure_eq_ret]
  iapply (op_lr m K c 0 17) $$ C17
  iintro %vr17 C17
  iapply (op_st m K c 0 17 _ rfl) $$ C17
  iintro C17
  iapply (op_cp m K c 0 17 hj) $$ C17
  iintro C17
  iapply (cur (op_s2 m K c 0 17 17 18 rfl rfl hj _ (dev_yn c (k0_dev52_eq c)))) $$ C17 HO
  iintro C17 HO
  iapply (cur (op_w1 m K c 0 18 18)) $$ C18 HO
  iintro C18 HO
  iapply (op_lx m K c 0 18) $$ C18
  iintro C18
  iapply (op_lb m K c 0 18) $$ C18
  iintro C18
  rw [wp_ret]; imodintro
  rw [wp_bind, k0_part20_eq_skeleton]; unfold k0_part20_skel
  simp only [Prog.lift, Prog.bind_op, Prog.bind_ret, Prog.pure_eq_ret]
  iapply (op_lr m K c 0 18) $$ C18
  iintro %vr18 C18
  iapply (op_st m K c 0 18 _ rfl) $$ C18
  iintro C18
  iapply (op_cp m K c 0 18 hj) $$ C18
  iintro C18
  iapply (cur (op_s2 m K c 0 18 18 19 rfl rfl hj _ (dev_yn c (k0_dev53_eq c)))) $$ C18 HO
  iintro C18 HO
  iapply (cur (op_w1 m K c 0 19 19)) $$ C19 HO
  iintro C19 HO
  iapply (op_lx m K c 0 19) $$ C19
  iintro C19
  rw [wp_ret]; imodintro
  rw [wp_bind, k0_part21_eq_skeleton]; unfold k0_part21_skel
  simp only [Prog.lift, Prog.bind_op, Prog.bind_ret, Prog.pure_eq_ret]
  iapply (op_lb m K c 0 19) $$ C19
  iintro C19
  iapply (op_lr m K c 0 19) $$ C19
  iintro %vr19 C19
  iapply (op_st m K c 0 19 _ rfl) $$ C19
  iintro C19
  iapply (op_cp m K c 0 19 hj) $$ C19
  iintro C19
  iapply (cur (op_s2 m K c 0 19 19 20 rfl rfl hj _ (dev_yn c (k0_dev54_eq c)))) $$ C19 HO
  iintro C19 HO
  iapply (cur (op_w1 m K c 0 20 20)) $$ C20 HO
  iintro C20 HO
  iapply (op_lx m K c 0 20) $$ C20
  iintro C20
  rw [wp_ret]; imodintro
  rw [wp_bind, k0_part22_eq_skeleton]; unfold k0_part22_skel
  simp only [Prog.lift, Prog.bind_op, Prog.bind_ret, Prog.pure_eq_ret]
  iapply (op_lb m K c 0 20) $$ C20
  iintro C20
  iapply (op_lr m K c 0 20) $$ C20
  iintro %vr20 C20
  iapply (op_st m K c 0 20 _ rfl) $$ C20
  iintro C20
  iapply (op_cp m K c 0 20 hj) $$ C20
  iintro C20
  iapply (cur (op_s2 m K c 0 20 20 21 rfl rfl hj _ (dev_yn c (k0_dev55_eq c)))) $$ C20 HO
  iintro C20 HO
  iapply (cur (op_w1 m K c 0 21 21)) $$ C21 HO
  iintro C21 HO
  rw [wp_ret]; imodintro
  rw [wp_bind, k0_part23_eq_skeleton]; unfold k0_part23_skel
  simp only [Prog.lift, Prog.bind_op, Prog.bind_ret, Prog.pure_eq_ret]
  iapply (op_sum m K c 0 21 _ fun _ => rfl) $$ C21
  iintro C21
  iapply (op_cp m K c 0 21 hj) $$ C21
  iintro C21
  iapply (cur (op_s2 m K c 0 21 21 22 rfl rfl hj _ (dev_yn c (k0_dev56_eq c)))) $$ C21 HO
  iintro C21 HO
  iapply (cur (op_w1 m K c 0 22 22)) $$ C22 HO
  iintro C22 HO
  rw [wp_ret]; imodintro
  rw [wp_bind, k0_part24_eq_skeleton]; unfold k0_part24_skel
  simp only [Prog.lift, Prog.bind_op, Prog.bind_ret, Prog.pure_eq_ret]
  iapply (op_sum m K c 0 22 _ fun _ => rfl) $$ C22
  iintro C22
  iapply (op_cp m K c 0 22 hj) $$ C22
  iintro C22
  iapply (cur (op_s2 m K c 0 22 22 23 rfl rfl hj _ (dev_yn c (k0_dev57_eq c)))) $$ C22 HO
  iintro C22 HO
  rw [wp_ret]; imodintro
  rw [wp_bind, k0_part25_eq_skeleton]; unfold k0_part25_skel
  simp only [Prog.lift, Prog.bind_op, Prog.bind_ret, Prog.pure_eq_ret]
  iapply (cur (op_w1 m K c 0 23 23)) $$ C23 HO
  iintro C23 HO
  iapply (op_sum m K c 0 23 _ fun _ => rfl) $$ C23
  iintro C23
  iapply (op_cp m K c 0 23 hj) $$ C23
  iintro C23
  iapply (cur (op_s2 m K c 0 23 23 24 rfl rfl hj _ (dev_yn c (k0_dev58_eq c)))) $$ C23 HO
  iintro C23 HO
  rw [wp_ret]; imodintro
  rw [wp_bind, k0_part26_eq_skeleton]; unfold k0_part26_skel
  simp only [Prog.lift, Prog.bind_op, Prog.bind_ret, Prog.pure_eq_ret]
  iapply (cur (op_w1 m K c 0 24 24)) $$ C24 HO
  iintro C24 HO
  iapply (op_sum m K c 0 24 _ fun _ => rfl) $$ C24
  iintro C24
  iapply (op_cp m K c 0 24 hj) $$ C24
  iintro C24
  iapply (cur (op_s2 m K c 0 24 24 25 rfl rfl hj _ (dev_yn c (k0_dev59_eq c)))) $$ C24 HO
  iintro C24 HO
  rw [wp_ret]; imodintro
  rw [wp_bind, k0_part27_eq_skeleton]; unfold k0_part27_skel
  simp only [Prog.lift, Prog.bind_op, Prog.bind_ret, Prog.pure_eq_ret]
  iapply (cur (op_w1 m K c 0 25 25)) $$ C25 HO
  iintro C25 HO
  iapply (op_sum m K c 0 25 _ fun _ => rfl) $$ C25
  iintro C25
  iapply (op_cp m K c 0 25 hj) $$ C25
  iintro C25
  iapply (cur (op_s2 m K c 0 25 25 26 rfl rfl hj _ (dev_yn c (k0_dev60_eq c)))) $$ C25 HO
  iintro C25 HO
  rw [wp_ret]; imodintro
  rw [wp_bind, k0_part28_eq_skeleton]; unfold k0_part28_skel
  simp only [Prog.lift, Prog.bind_op, Prog.bind_ret, Prog.pure_eq_ret]
  iapply (cur (op_w1 m K c 0 26 26)) $$ C26 HO
  iintro C26 HO
  iapply (op_sum m K c 0 26 _ fun _ => rfl) $$ C26
  iintro C26
  iapply (op_cp m K c 0 26 hj) $$ C26
  iintro C26
  iapply (cur (op_s2 m K c 0 26 26 27 rfl rfl hj _ (dev_yn c (k0_dev61_eq c)))) $$ C26 HO
  iintro C26 HO
  rw [wp_ret]; imodintro
  rw [wp_bind, k0_part29_eq_skeleton]; unfold k0_part29_skel
  simp only [Prog.lift, Prog.bind_op, Prog.bind_ret, Prog.pure_eq_ret]
  iapply (cur (op_w1 m K c 0 27 27)) $$ C27 HO
  iintro C27 HO
  iapply (op_sum m K c 0 27 _ fun _ => rfl) $$ C27
  iintro C27
  iapply (op_cp m K c 0 27 hj) $$ C27
  iintro C27
  iapply (cur (op_s2 m K c 0 27 27 28 rfl rfl hj _ (dev_yn c (k0_dev62_eq c)))) $$ C27 HO
  iintro C27 HO
  rw [wp_ret]; imodintro
  rw [wp_bind, k0_part30_eq_skeleton]; unfold k0_part30_skel
  simp only [Prog.lift, Prog.bind_op, Prog.bind_ret, Prog.pure_eq_ret]
  iapply (cur (op_w1 m K c 0 28 28)) $$ C28 HO
  iintro C28 HO
  iapply (op_sum m K c 0 28 _ fun _ => rfl) $$ C28
  iintro C28
  iapply (op_cp m K c 0 28 hj) $$ C28
  iintro C28
  iapply (cur (op_s2 m K c 0 28 28 29 rfl rfl hj _ (dev_yn c (k0_dev63_eq c)))) $$ C28 HO
  iintro C28 HO
  rw [wp_ret]; imodintro
  rw [wp_bind, k0_part31_eq_skeleton]; unfold k0_part31_skel
  simp only [Prog.lift, Prog.bind_op, Prog.bind_ret, Prog.pure_eq_ret]
  iapply (cur (op_w1 m K c 0 29 29)) $$ C29 HO
  iintro C29 HO
  iapply (op_sum m K c 0 29 _ fun _ => rfl) $$ C29
  iintro C29
  iapply (op_cp m K c 0 29 hj) $$ C29
  iintro C29
  iapply (cur (op_s2 m K c 0 29 29 30 rfl rfl hj _ (dev_yn c (k0_dev64_eq c)))) $$ C29 HO
  iintro C29 HO
  rw [wp_ret]; imodintro
  rw [wp_bind, k0_part32_eq_skeleton]; unfold k0_part32_skel
  simp only [Prog.lift, Prog.bind_op, Prog.bind_ret, Prog.pure_eq_ret]
  iapply (cur (op_w1 m K c 0 30 30)) $$ C30 HO
  iintro C30 HO
  iapply (op_sum m K c 0 30 _ fun _ => rfl) $$ C30
  iintro C30
  iapply (op_cp m K c 0 30 hj) $$ C30
  iintro C30
  rw [wp_ret]; imodintro
  rw [wp_bind, k0_part33_eq_skeleton]; unfold k0_part33_skel
  simp only [Prog.lift, Prog.bind_op, Prog.bind_ret, Prog.pure_eq_ret]
  iapply (cur (op_s2 m K c 0 30 30 31 rfl rfl hj _ (dev_yn c (k0_dev65_eq c)))) $$ C30 HO
  iintro C30 HO
  iapply (cur (op_w1 m K c 0 31 31)) $$ C31 HO
  iintro C31 HO
  iapply (op_sum m K c 0 31 _ fun _ => rfl) $$ C31
  iintro C31
  iapply (op_cp m K c 0 31 hj) $$ C31
  iintro C31
  rw [wp_ret]; imodintro
  rw [wp_bind, k0_part34_eq_skeleton]; unfold k0_part34_skel
  simp only [Prog.lift, Prog.bind_op, Prog.bind_ret, Prog.pure_eq_ret]
  iapply (cur (op_s2 m K c 0 31 31 32 rfl rfl hj _ (dev_yn c (k0_dev66_eq c)))) $$ C31 HO
  iintro C31 HO
  ihave HO := (owesX_R2_end c) $$ HO
  iapply (cur (op_ws1 m K c 0)) $$ C0 HO
  iintro C0 HO
  iapply (cur (op_wcp m K c 0 0 hj)) $$ C0 HO
  iintro C0 HO
  iapply (cur (op_ws2 m K c 0 0)) $$ C0 HO
  iintro C0 HO
  iapply (cur (op_wr2 m K c 0 0 hj)) $$ C0 HO
  iintro C0 HO
  rw [wp_ret]; imodintro
  rw [wp_bind, k0_part35_eq_skeleton]; unfold k0_part35_skel
  simp only [Prog.lift, Prog.bind_op, Prog.bind_ret, Prog.pure_eq_ret]
  iapply (cur (op_ws1 m K c 1)) $$ C1 HO
  iintro C1 HO
  iapply (cur (op_wcp m K c 0 1 hj)) $$ C1 HO
  iintro C1 HO
  iapply (cur (op_ws2 m K c 0 1)) $$ C1 HO
  iintro C1 HO
  iapply (cur (op_wr2 m K c 0 1 hj)) $$ C1 HO
  iintro C1 HO
  iapply (cur (op_ws1 m K c 2)) $$ C2 HO
  iintro C2 HO
  rw [wp_ret]; imodintro
  rw [wp_bind, k0_part36_eq_skeleton]; unfold k0_part36_skel
  simp only [Prog.lift, Prog.bind_op, Prog.bind_ret, Prog.pure_eq_ret]
  iapply (cur (op_wcp m K c 0 2 hj)) $$ C2 HO
  iintro C2 HO
  iapply (cur (op_ws2 m K c 0 2)) $$ C2 HO
  iintro C2 HO
  iapply (cur (op_wr2 m K c 0 2 hj)) $$ C2 HO
  iintro C2 HO
  iapply (cur (op_ws1 m K c 3)) $$ C3 HO
  iintro C3 HO
  iapply (cur (op_wcp m K c 0 3 hj)) $$ C3 HO
  iintro C3 HO
  rw [wp_ret]; imodintro
  rw [wp_bind, k0_part37_eq_skeleton]; unfold k0_part37_skel
  simp only [Prog.lift, Prog.bind_op, Prog.bind_ret, Prog.pure_eq_ret]
  iapply (cur (op_ws2 m K c 0 3)) $$ C3 HO
  iintro C3 HO
  iapply (cur (op_wr2 m K c 0 3 hj)) $$ C3 HO
  iintro C3 HO
  iapply (cur (op_ws1 m K c 4)) $$ C4 HO
  iintro C4 HO
  iapply (cur (op_wcp m K c 0 4 hj)) $$ C4 HO
  iintro C4 HO
  iapply (cur (op_ws2 m K c 0 4)) $$ C4 HO
  iintro C4 HO
  rw [wp_ret]; imodintro
  rw [wp_bind, k0_part38_eq_skeleton]; unfold k0_part38_skel
  simp only [Prog.lift, Prog.bind_op, Prog.bind_ret, Prog.pure_eq_ret]
  iapply (cur (op_wr2 m K c 0 4 hj)) $$ C4 HO
  iintro C4 HO
  iapply (cur (op_ws1 m K c 5)) $$ C5 HO
  iintro C5 HO
  iapply (cur (op_wcp m K c 0 5 hj)) $$ C5 HO
  iintro C5 HO
  iapply (cur (op_ws2 m K c 0 5)) $$ C5 HO
  iintro C5 HO
  rw [wp_ret]; imodintro
  rw [wp_bind, k0_part39_eq_skeleton]; unfold k0_part39_skel
  simp only [Prog.lift, Prog.bind_op, Prog.bind_ret, Prog.pure_eq_ret]
  iapply (cur (op_wr2 m K c 0 5 hj)) $$ C5 HO
  iintro C5 HO
  iapply (cur (op_ws1 m K c 6)) $$ C6 HO
  iintro C6 HO
  iapply (cur (op_wcp m K c 0 6 hj)) $$ C6 HO
  iintro C6 HO
  iapply (cur (op_ws2 m K c 0 6)) $$ C6 HO
  iintro C6 HO
  iapply (cur (op_wr2 m K c 0 6 hj)) $$ C6 HO
  iintro C6 HO
  rw [wp_ret]; imodintro
  rw [wp_bind, k0_part40_eq_skeleton]; unfold k0_part40_skel
  simp only [Prog.lift, Prog.bind_op, Prog.bind_ret, Prog.pure_eq_ret]
  iapply (cur (op_ws1 m K c 7)) $$ C7 HO
  iintro C7 HO
  iapply (cur (op_wcp m K c 0 7 hj)) $$ C7 HO
  iintro C7 HO
  iapply (cur (op_ws2 m K c 0 7)) $$ C7 HO
  iintro C7 HO
  iapply (cur (op_wr2 m K c 0 7 hj)) $$ C7 HO
  iintro C7 HO
  iapply (cur (op_ws1 m K c 8)) $$ C8 HO
  iintro C8 HO
  rw [wp_ret]; imodintro
  rw [wp_bind, k0_part41_eq_skeleton]; unfold k0_part41_skel
  simp only [Prog.lift, Prog.bind_op, Prog.bind_ret, Prog.pure_eq_ret]
  iapply (cur (op_wcp m K c 0 8 hj)) $$ C8 HO
  iintro C8 HO
  iapply (cur (op_ws2 m K c 0 8)) $$ C8 HO
  iintro C8 HO
  iapply (cur (op_wr2 m K c 0 8 hj)) $$ C8 HO
  iintro C8 HO
  iapply (cur (op_ws1 m K c 9)) $$ C9 HO
  iintro C9 HO
  iapply (cur (op_wcp m K c 0 9 hj)) $$ C9 HO
  iintro C9 HO
  rw [wp_ret]; imodintro
  rw [wp_bind, k0_part42_eq_skeleton]; unfold k0_part42_skel
  simp only [Prog.lift, Prog.bind_op, Prog.bind_ret, Prog.pure_eq_ret]
  iapply (cur (op_ws2 m K c 0 9)) $$ C9 HO
  iintro C9 HO
  iapply (cur (op_wr2 m K c 0 9 hj)) $$ C9 HO
  iintro C9 HO
  iapply (cur (op_ws1 m K c 10)) $$ C10 HO
  iintro C10 HO
  iapply (cur (op_wcp m K c 0 10 hj)) $$ C10 HO
  iintro C10 HO
  iapply (cur (op_ws2 m K c 0 10)) $$ C10 HO
  iintro C10 HO
  rw [wp_ret]; imodintro
  rw [wp_bind, k0_part43_eq_skeleton]; unfold k0_part43_skel
  simp only [Prog.lift, Prog.bind_op, Prog.bind_ret, Prog.pure_eq_ret]
  iapply (cur (op_wr2 m K c 0 10 hj)) $$ C10 HO
  iintro C10 HO
  iapply (cur (op_ws1 m K c 11)) $$ C11 HO
  iintro C11 HO
  iapply (cur (op_wcp m K c 0 11 hj)) $$ C11 HO
  iintro C11 HO
  iapply (cur (op_ws2 m K c 0 11)) $$ C11 HO
  iintro C11 HO
  rw [wp_ret]; imodintro
  rw [wp_bind, k0_part44_eq_skeleton]; unfold k0_part44_skel
  simp only [Prog.lift, Prog.bind_op, Prog.bind_ret, Prog.pure_eq_ret]
  iapply (cur (op_wr2 m K c 0 11 hj)) $$ C11 HO
  iintro C11 HO
  iapply (cur (op_ws1 m K c 12)) $$ C12 HO
  iintro C12 HO
  iapply (cur (op_wcp m K c 0 12 hj)) $$ C12 HO
  iintro C12 HO
  iapply (cur (op_ws2 m K c 0 12)) $$ C12 HO
  iintro C12 HO
  iapply (cur (op_wr2 m K c 0 12 hj)) $$ C12 HO
  iintro C12 HO
  rw [wp_ret]; imodintro
  rw [wp_bind, k0_part45_eq_skeleton]; unfold k0_part45_skel
  simp only [Prog.lift, Prog.bind_op, Prog.bind_ret, Prog.pure_eq_ret]
  iapply (cur (op_ws1 m K c 13)) $$ C13 HO
  iintro C13 HO
  iapply (cur (op_wcp m K c 0 13 hj)) $$ C13 HO
  iintro C13 HO
  iapply (cur (op_ws2 m K c 0 13)) $$ C13 HO
  iintro C13 HO
  iapply (cur (op_wr2 m K c 0 13 hj)) $$ C13 HO
  iintro C13 HO
  iapply (cur (op_ws1 m K c 14)) $$ C14 HO
  iintro C14 HO
  rw [wp_ret]; imodintro
  rw [wp_bind, k0_part46_eq_skeleton]; unfold k0_part46_skel
  simp only [Prog.lift, Prog.bind_op, Prog.bind_ret, Prog.pure_eq_ret]
  iapply (cur (op_wcp m K c 0 14 hj)) $$ C14 HO
  iintro C14 HO
  iapply (cur (op_ws2 m K c 0 14)) $$ C14 HO
  iintro C14 HO
  iapply (cur (op_wr2 m K c 0 14 hj)) $$ C14 HO
  iintro C14 HO
  iapply (cur (op_ws1 m K c 15)) $$ C15 HO
  iintro C15 HO
  iapply (cur (op_wcp m K c 0 15 hj)) $$ C15 HO
  iintro C15 HO
  rw [wp_ret]; imodintro
  rw [wp_bind, k0_part47_eq_skeleton]; unfold k0_part47_skel
  simp only [Prog.lift, Prog.bind_op, Prog.bind_ret, Prog.pure_eq_ret]
  iapply (cur (op_ws2 m K c 0 15)) $$ C15 HO
  iintro C15 HO
  iapply (cur (op_wr2 m K c 0 15 hj)) $$ C15 HO
  iintro C15 HO
  iapply (cur (op_ws1 m K c 16)) $$ C16 HO
  iintro C16 HO
  iapply (cur (op_wcp m K c 0 16 hj)) $$ C16 HO
  iintro C16 HO
  iapply (cur (op_ws2 m K c 0 16)) $$ C16 HO
  iintro C16 HO
  rw [wp_ret]; imodintro
  rw [wp_bind, k0_part48_eq_skeleton]; unfold k0_part48_skel
  simp only [Prog.lift, Prog.bind_op, Prog.bind_ret, Prog.pure_eq_ret]
  iapply (cur (op_wr2 m K c 0 16 hj)) $$ C16 HO
  iintro C16 HO
  iapply (cur (op_ws1 m K c 17)) $$ C17 HO
  iintro C17 HO
  iapply (cur (op_wcp m K c 0 17 hj)) $$ C17 HO
  iintro C17 HO
  iapply (cur (op_ws2 m K c 0 17)) $$ C17 HO
  iintro C17 HO
  rw [wp_ret]; imodintro
  rw [wp_bind, k0_part49_eq_skeleton]; unfold k0_part49_skel
  simp only [Prog.lift, Prog.bind_op, Prog.bind_ret, Prog.pure_eq_ret]
  iapply (cur (op_wr2 m K c 0 17 hj)) $$ C17 HO
  iintro C17 HO
  iapply (cur (op_ws1 m K c 18)) $$ C18 HO
  iintro C18 HO
  iapply (cur (op_wcp m K c 0 18 hj)) $$ C18 HO
  iintro C18 HO
  iapply (cur (op_ws2 m K c 0 18)) $$ C18 HO
  iintro C18 HO
  iapply (cur (op_wr2 m K c 0 18 hj)) $$ C18 HO
  iintro C18 HO
  rw [wp_ret]; imodintro
  rw [wp_bind, k0_part50_eq_skeleton]; unfold k0_part50_skel
  simp only [Prog.lift, Prog.bind_op, Prog.bind_ret, Prog.pure_eq_ret]
  iapply (cur (op_ws1 m K c 19)) $$ C19 HO
  iintro C19 HO
  iapply (cur (op_wcp m K c 0 19 hj)) $$ C19 HO
  iintro C19 HO
  iapply (cur (op_ws2 m K c 0 19)) $$ C19 HO
  iintro C19 HO
  iapply (cur (op_wr2 m K c 0 19 hj)) $$ C19 HO
  iintro C19 HO
  iapply (cur (op_ws1 m K c 20)) $$ C20 HO
  iintro C20 HO
  rw [wp_ret]; imodintro
  rw [wp_bind, k0_part51_eq_skeleton]; unfold k0_part51_skel
  simp only [Prog.lift, Prog.bind_op, Prog.bind_ret, Prog.pure_eq_ret]
  iapply (cur (op_wcp m K c 0 20 hj)) $$ C20 HO
  iintro C20 HO
  iapply (cur (op_ws2 m K c 0 20)) $$ C20 HO
  iintro C20 HO
  iapply (cur (op_wr2 m K c 0 20 hj)) $$ C20 HO
  iintro C20 HO
  iapply (cur (op_ws1 m K c 21)) $$ C21 HO
  iintro C21 HO
  iapply (cur (op_wcp m K c 0 21 hj)) $$ C21 HO
  iintro C21 HO
  rw [wp_ret]; imodintro
  rw [wp_bind, k0_part52_eq_skeleton]; unfold k0_part52_skel
  simp only [Prog.lift, Prog.bind_op, Prog.bind_ret, Prog.pure_eq_ret]
  iapply (cur (op_ws2 m K c 0 21)) $$ C21 HO
  iintro C21 HO
  iapply (cur (op_wr2 m K c 0 21 hj)) $$ C21 HO
  iintro C21 HO
  iapply (cur (op_ws1 m K c 22)) $$ C22 HO
  iintro C22 HO
  iapply (cur (op_wcp m K c 0 22 hj)) $$ C22 HO
  iintro C22 HO
  iapply (cur (op_ws2 m K c 0 22)) $$ C22 HO
  iintro C22 HO
  rw [wp_ret]; imodintro
  rw [wp_bind, k0_part53_eq_skeleton]; unfold k0_part53_skel
  simp only [Prog.lift, Prog.bind_op, Prog.bind_ret, Prog.pure_eq_ret]
  iapply (cur (op_wr2 m K c 0 22 hj)) $$ C22 HO
  iintro C22 HO
  iapply (cur (op_ws1 m K c 23)) $$ C23 HO
  iintro C23 HO
  iapply (cur (op_wcp m K c 0 23 hj)) $$ C23 HO
  iintro C23 HO
  iapply (cur (op_ws2 m K c 0 23)) $$ C23 HO
  iintro C23 HO
  rw [wp_ret]; imodintro
  rw [wp_bind, k0_part54_eq_skeleton]; unfold k0_part54_skel
  simp only [Prog.lift, Prog.bind_op, Prog.bind_ret, Prog.pure_eq_ret]
  iapply (cur (op_wr2 m K c 0 23 hj)) $$ C23 HO
  iintro C23 HO
  iapply (cur (op_ws1 m K c 24)) $$ C24 HO
  iintro C24 HO
  iapply (cur (op_wcp m K c 0 24 hj)) $$ C24 HO
  iintro C24 HO
  iapply (cur (op_ws2 m K c 0 24)) $$ C24 HO
  iintro C24 HO
  iapply (cur (op_wr2 m K c 0 24 hj)) $$ C24 HO
  iintro C24 HO
  rw [wp_ret]; imodintro
  rw [wp_bind, k0_part55_eq_skeleton]; unfold k0_part55_skel
  simp only [Prog.lift, Prog.bind_op, Prog.bind_ret, Prog.pure_eq_ret]
  iapply (cur (op_ws1 m K c 25)) $$ C25 HO
  iintro C25 HO
  iapply (cur (op_wcp m K c 0 25 hj)) $$ C25 HO
  iintro C25 HO
  iapply (cur (op_ws2 m K c 0 25)) $$ C25 HO
  iintro C25 HO
  iapply (cur (op_wr2 m K c 0 25 hj)) $$ C25 HO
  iintro C25 HO
  iapply (cur (op_ws1 m K c 26)) $$ C26 HO
  iintro C26 HO
  rw [wp_ret]; imodintro
  rw [wp_bind, k0_part56_eq_skeleton]; unfold k0_part56_skel
  simp only [Prog.lift, Prog.bind_op, Prog.bind_ret, Prog.pure_eq_ret]
  iapply (cur (op_wcp m K c 0 26 hj)) $$ C26 HO
  iintro C26 HO
  iapply (cur (op_ws2 m K c 0 26)) $$ C26 HO
  iintro C26 HO
  iapply (cur (op_wr2 m K c 0 26 hj)) $$ C26 HO
  iintro C26 HO
  iapply (cur (op_ws1 m K c 27)) $$ C27 HO
  iintro C27 HO
  iapply (cur (op_wcp m K c 0 27 hj)) $$ C27 HO
  iintro C27 HO
  rw [wp_ret]; imodintro
  rw [wp_bind, k0_part57_eq_skeleton]; unfold k0_part57_skel
  simp only [Prog.lift, Prog.bind_op, Prog.bind_ret, Prog.pure_eq_ret]
  iapply (cur (op_ws2 m K c 0 27)) $$ C27 HO
  iintro C27 HO
  iapply (cur (op_wr2 m K c 0 27 hj)) $$ C27 HO
  iintro C27 HO
  iapply (cur (op_ws1 m K c 28)) $$ C28 HO
  iintro C28 HO
  iapply (cur (op_wcp m K c 0 28 hj)) $$ C28 HO
  iintro C28 HO
  iapply (cur (op_ws2 m K c 0 28)) $$ C28 HO
  iintro C28 HO
  rw [wp_ret]; imodintro
  rw [wp_bind, k0_part58_eq_skeleton]; unfold k0_part58_skel
  simp only [Prog.lift, Prog.bind_op, Prog.bind_ret, Prog.pure_eq_ret]
  iapply (cur (op_wr2 m K c 0 28 hj)) $$ C28 HO
  iintro C28 HO
  iapply (cur (op_ws1 m K c 29)) $$ C29 HO
  iintro C29 HO
  iapply (cur (op_wcp m K c 0 29 hj)) $$ C29 HO
  iintro C29 HO
  iapply (cur (op_ws2 m K c 0 29)) $$ C29 HO
  iintro C29 HO
  rw [wp_ret]; imodintro
  rw [wp_bind, k0_part59_eq_skeleton]; unfold k0_part59_skel
  simp only [Prog.lift, Prog.bind_op, Prog.bind_ret, Prog.pure_eq_ret]
  iapply (cur (op_wr2 m K c 0 29 hj)) $$ C29 HO
  iintro C29 HO
  iapply (cur (op_ws1 m K c 30)) $$ C30 HO
  iintro C30 HO
  iapply (cur (op_wcp m K c 0 30 hj)) $$ C30 HO
  iintro C30 HO
  iapply (cur (op_ws2 m K c 0 30)) $$ C30 HO
  iintro C30 HO
  iapply (cur (op_wr2 m K c 0 30 hj)) $$ C30 HO
  iintro C30 HO
  rw [wp_ret]; imodintro
  rw [wp_ret]; imodintro; iframe

end Cert.KernelIdeal.Coll

end
-- ==== Proof.KI.Branch1.lean ====
import proofs.«900269_g7700000000000270_dist_redx_gaty_m2048_n1024_v7x_xy2x2_f32_1_alg».proof.Proof.KI.Ops1
import proofs.«900269_g7700000000000270_dist_redx_gaty_m2048_n1024_v7x_xy2x2_f32_1_alg».proof.Proof.KI.Ops2
import proofs.«900269_g7700000000000270_dist_redx_gaty_m2048_n1024_v7x_xy2x2_f32_1_alg».proof.Proof.KI.Devs
import proofs.«900269_g7700000000000270_dist_redx_gaty_m2048_n1024_v7x_xy2x2_f32_1_alg».proof.Proof.KI.Glue

set_option maxRecDepth 65536

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KIx → ℕ) (c : Dev nD)

set_option maxHeartbeats 8000000 in
/-- The pipeline of column half 1: every chunk goes from its first-stage copy issued to its sum copied and sent; all but the last are then waited to the end. -/
theorem run_part120 (hj : col c = 1) (v2 : BitVec 32) (v5 : BitVec 32) (v17 : BitVec 32) (v28 : BitVec 32) (v39 : BitVec 32) (v50 : BitVec 32) (v61 : BitVec 32) (v72 : BitVec 32) (v83 : BitVec 32) (v94 : BitVec 32) (v105 : BitVec 32) (v116 : BitVec 32) (v127 : BitVec 32) (v138 : BitVec 32) (v149 : BitVec 32) (v160 : BitVec 32) (v171 : BitVec 32) (v182 : BitVec 32) (v193 : BitVec 32) (v204 : BitVec 32) (v215 : BitVec 32) (v226 : BitVec 32) (v237 : BitVec 32) (v248 : BitVec 32) (v259 : BitVec 32) (v270 : BitVec 32) (v281 : BitVec 32) (v292 : BitVec 32) (v303 : BitVec 32) (v314 : BitVec 32) (v325 : BitVec 32) (v336 : BitVec 32) (v347 : BitVec 32) (v358 : BitVec 32) (k0_h2 : k0_cond2 c = 1#1) :
    iprop(ck1 m K c 1 0 ∗ ck1 m K c 1 1 ∗ ck1 m K c 1 2 ∗ ck1 m K c 1 3 ∗ ck1 m K c 1 4 ∗ ck1 m K c 1 5 ∗ ck1 m K c 1 6 ∗ ck1 m K c 1 7 ∗ ck1 m K c 1 8 ∗ ck1 m K c 1 9 ∗ ck1 m K c 1 10 ∗ ck1 m K c 1 11 ∗ ck1 m K c 1 12 ∗ ck1 m K c 1 13 ∗ ck1 m K c 1 14 ∗ ck1 m K c 1 15 ∗ ck1 m K c 1 16 ∗ ck1 m K c 1 17 ∗ ck1 m K c 1 18 ∗ ck1 m K c 1 19 ∗ ck1 m K c 1 20 ∗ ck1 m K c 1 21 ∗ ck1 m K c 1 22 ∗ ck1 m K c 1 23 ∗ ck1 m K c 1 24 ∗ ck1 m K c 1 25 ∗ ck1 m K c 1 26 ∗ ck1 m K c 1 27 ∗ ck1 m K c 1 28 ∗ ck1 m K c 1 29 ∗ ck1 m K c 1 30 ∗ ck1 m K c 1 31 ∗ owesX c (R2 c 0))
      ⊢ wp frame (wpE (defs₀ (F := F)) 𝒱₀ (c : Thread nD τ) none) Set.univ (atBufs k0_part120 c v2 v5 v17 v28 v39 v50 v61 v72 v83 v94 v105 v116 v127 v138 v149 v160 v171 v182 v193 v204 v215 v226 v237 v248 v259 v270 v281 v292 v303 v314 v325 v336 v347 v358 k0_h2)
          (fun _ => iprop(ck9 m K c 1 0 ∗ ck9 m K c 1 1 ∗ ck9 m K c 1 2 ∗ ck9 m K c 1 3 ∗ ck9 m K c 1 4 ∗ ck9 m K c 1 5 ∗ ck9 m K c 1 6 ∗ ck9 m K c 1 7 ∗ ck9 m K c 1 8 ∗ ck9 m K c 1 9 ∗ ck9 m K c 1 10 ∗ ck9 m K c 1 11 ∗ ck9 m K c 1 12 ∗ ck9 m K c 1 13 ∗ ck9 m K c 1 14 ∗ ck9 m K c 1 15 ∗ ck9 m K c 1 16 ∗ ck9 m K c 1 17 ∗ ck9 m K c 1 18 ∗ ck9 m K c 1 19 ∗ ck9 m K c 1 20 ∗ ck9 m K c 1 21 ∗ ck9 m K c 1 22 ∗ ck9 m K c 1 23 ∗ ck9 m K c 1 24 ∗ ck9 m K c 1 25 ∗ ck9 m K c 1 26 ∗ ck9 m K c 1 27 ∗ ck9 m K c 1 28 ∗ ck9 m K c 1 29 ∗ ck9 m K c 1 30 ∗ ck5 m K c 31 ∗ owesX c 0)) := by
  rw [k0_part120_eq_skeleton]; unfold atBufs k0_part120_skel
  simp only [Prog.lift, Prog.bind_op, Prog.bind_ret, Prog.pure_eq_ret]
  iintro ⟨C0, C1, C2, C3, C4, C5, C6, C7, C8, C9, C10, C11, C12, C13, C14, C15, C16, C17, C18, C19, C20, C21, C22, C23, C24, C25, C26, C27, C28, C29, C30, C31, HO⟩
  rw [wp_bind, k0_part61_eq_skeleton]; unfold k0_part61_skel
  simp only [Prog.lift, Prog.bind_op, Prog.bind_ret, Prog.pure_eq_ret]
  iapply (cur (op_w1 m K c 1 0 0)) $$ C0 HO
  iintro C0 HO
  iapply (op_sum m K c 1 0 _ fun _ => rfl) $$ C0
  iintro C0
  iapply (op_cp m K c 1 0 hj) $$ C0
  iintro C0
  rw [wp_ret]; imodintro
  rw [wp_bind, k0_part62_eq_skeleton]; unfold k0_part62_skel
  simp only [Prog.lift, Prog.bind_op, Prog.bind_ret, Prog.pure_eq_ret]
  iapply (cur (op_s2 m K c 1 0 0 1 rfl rfl hj _ (dev_yn c (k0_dev67_eq c)))) $$ C0 HO
  iintro C0 HO
  iapply (cur (op_w1 m K c 1 1 1)) $$ C1 HO
  iintro C1 HO
  iapply (op_sum m K c 1 1 _ fun _ => rfl) $$ C1
  iintro C1
  iapply (op_cp m K c 1 1 hj) $$ C1
  iintro C1
  rw [wp_ret]; imodintro
  rw [wp_bind, k0_part63_eq_skeleton]; unfold k0_part63_skel
  simp only [Prog.lift, Prog.bind_op, Prog.bind_ret, Prog.pure_eq_ret]
  iapply (cur (op_s2 m K c 1 1 1 2 rfl rfl hj _ (dev_yn c (k0_dev68_eq c)))) $$ C1 HO
  iintro C1 HO
  iapply (cur (op_w1 m K c 1 2 2)) $$ C2 HO
  iintro C2 HO
  iapply (op_sum m K c 1 2 _ fun _ => rfl) $$ C2
  iintro C2
  iapply (op_cp m K c 1 2 hj) $$ C2
  iintro C2
  rw [wp_ret]; imodintro
  rw [wp_bind, k0_part64_eq_skeleton]; unfold k0_part64_skel
  simp only [Prog.lift, Prog.bind_op, Prog.bind_ret, Prog.pure_eq_ret]
  iapply (cur (op_s2 m K c 1 2 2 3 rfl rfl hj _ (dev_yn c (k0_dev69_eq c)))) $$ C2 HO
  iintro C2 HO
  iapply (cur (op_w1 m K c 1 3 3)) $$ C3 HO
  iintro C3 HO
  iapply (op_sum m K c 1 3 _ fun _ => rfl) $$ C3
  iintro C3
  iapply (op_cp m K c 1 3 hj) $$ C3
  iintro C3
  rw [wp_ret]; imodintro
  rw [wp_bind, k0_part65_eq_skeleton]; unfold k0_part65_skel
  simp only [Prog.lift, Prog.bind_op, Prog.bind_ret, Prog.pure_eq_ret]
  iapply (cur (op_s2 m K c 1 3 3 4 rfl rfl hj _ (dev_yn c (k0_dev70_eq c)))) $$ C3 HO
  iintro C3 HO
  iapply (cur (op_w1 m K c 1 4 4)) $$ C4 HO
  iintro C4 HO
  iapply (op_sum m K c 1 4 _ fun _ => rfl) $$ C4
  iintro C4
  iapply (op_cp m K c 1 4 hj) $$ C4
  iintro C4
  rw [wp_ret]; imodintro
  rw [wp_bind, k0_part66_eq_skeleton]; unfold k0_part66_skel
  simp only [Prog.lift, Prog.bind_op, Prog.bind_ret, Prog.pure_eq_ret]
  iapply (cur (op_s2 m K c 1 4 4 5 rfl rfl hj _ (dev_yn c (k0_dev71_eq c)))) $$ C4 HO
  iintro C4 HO
  iapply (cur (op_w1 m K c 1 5 5)) $$ C5 HO
  iintro C5 HO
  iapply (op_sum m K c 1 5 _ fun _ => rfl) $$ C5
  iintro C5
  iapply (op_cp m K c 1 5 hj) $$ C5
  iintro C5
  rw [wp_ret]; imodintro
  rw [wp_bind, k0_part67_eq_skeleton]; unfold k0_part67_skel
  simp only [Prog.lift, Prog.bind_op, Prog.bind_ret, Prog.pure_eq_ret]
  iapply (cur (op_s2 m K c 1 5 5 6 rfl rfl hj _ (dev_yn c (k0_dev72_eq c)))) $$ C5 HO
  iintro C5 HO
  iapply (cur (op_w1 m K c 1 6 6)) $$ C6 HO
  iintro C6 HO
  iapply (op_sum m K c 1 6 _ fun _ => rfl) $$ C6
  iintro C6
  iapply (op_cp m K c 1 6 hj) $$ C6
  iintro C6
  rw [wp_ret]; imodintro
  rw [wp_bind, k0_part68_eq_skeleton]; unfold k0_part68_skel
  simp only [Prog.lift, Prog.bind_op, Prog.bind_ret, Prog.pure_eq_ret]
  iapply (cur (op_s2 m K c 1 6 6 7 rfl rfl hj _ (dev_yn c (k0_dev73_eq c)))) $$ C6 HO
  iintro C6 HO
  iapply (cur (op_w1 m K c 1 7 7)) $$ C7 HO
  iintro C7 HO
  iapply (op_sum m K c 1 7 _ fun _ => rfl) $$ C7
  iintro C7
  iapply (op_cp m K c 1 7 hj) $$ C7
  iintro C7
  rw [wp_ret]; imodintro
  rw [wp_bind, k0_part69_eq_skeleton]; unfold k0_part69_skel
  simp only [Prog.lift, Prog.bind_op, Prog.bind_ret, Prog.pure_eq_ret]
  iapply (cur (op_s2 m K c 1 7 7 8 rfl rfl hj _ (dev_yn c (k0_dev74_eq c)))) $$ C7 HO
  iintro C7 HO
  iapply (cur (op_w1 m K c 1 8 8)) $$ C8 HO
  iintro C8 HO
  iapply (op_sum m K c 1 8 _ fun _ => rfl) $$ C8
  iintro C8
  iapply (op_cp m K c 1 8 hj) $$ C8
  iintro C8
  rw [wp_ret]; imodintro
  rw [wp_bind, k0_part70_eq_skeleton]; unfold k0_part70_skel
  simp only [Prog.lift, Prog.bind_op, Prog.bind_ret, Prog.pure_eq_ret]
  iapply (cur (op_s2 m K c 1 8 8 9 rfl rfl hj _ (dev_yn c (k0_dev75_eq c)))) $$ C8 HO
  iintro C8 HO
  iapply (cur (op_w1 m K c 1 9 9)) $$ C9 HO
  iintro C9 HO
  iapply (op_sum m K c 1 9 _ fun _ => rfl) $$ C9
  iintro C9
  iapply (op_cp m K c 1 9 hj) $$ C9
  iintro C9
  rw [wp_ret]; imodintro
  rw [wp_bind, k0_part71_eq_skeleton]; unfold k0_part71_skel
  simp only [Prog.lift, Prog.bind_op, Prog.bind_ret, Prog.pure_eq_ret]
  iapply (cur (op_s2 m K c 1 9 9 10 rfl rfl hj _ (dev_yn c (k0_dev76_eq c)))) $$ C9 HO
  iintro C9 HO
  iapply (cur (op_w1 m K c 1 10 10)) $$ C10 HO
  iintro C10 HO
  iapply (op_sum m K c 1 10 _ fun _ => rfl) $$ C10
  iintro C10
  iapply (op_cp m K c 1 10 hj) $$ C10
  iintro C10
  rw [wp_ret]; imodintro
  rw [wp_bind, k0_part72_eq_skeleton]; unfold k0_part72_skel
  simp only [Prog.lift, Prog.bind_op, Prog.bind_ret, Prog.pure_eq_ret]
  iapply (cur (op_s2 m K c 1 10 10 11 rfl rfl hj _ (dev_yn c (k0_dev77_eq c)))) $$ C10 HO
  iintro C10 HO
  iapply (cur (op_w1 m K c 1 11 11)) $$ C11 HO
  iintro C11 HO
  iapply (op_sum m K c 1 11 _ fun _ => rfl) $$ C11
  iintro C11
  rw [wp_ret]; imodintro
  rw [wp_bind, k0_part73_eq_skeleton]; unfold k0_part73_skel
  simp only [Prog.lift, Prog.bind_op, Prog.bind_ret, Prog.pure_eq_ret]
  iapply (op_cp m K c 1 11 hj) $$ C11
  iintro C11
  iapply (cur (op_s2 m K c 1 11 11 12 rfl rfl hj _ (dev_yn c (k0_dev78_eq c)))) $$ C11 HO
  iintro C11 HO
  iapply (cur (op_w1 m K c 1 12 12)) $$ C12 HO
  iintro C12 HO
  iapply (op_sum m K c 1 12 _ fun _ => rfl) $$ C12
  iintro C12
  rw [wp_ret]; imodintro
  rw [wp_bind, k0_part74_eq_skeleton]; unfold k0_part74_skel
  simp only [Prog.lift, Prog.bind_op, Prog.bind_ret, Prog.pure_eq_ret]
  iapply (op_cp m K c 1 12 hj) $$ C12
  iintro C12
  iapply (cur (op_s2 m K c 1 12 12 13 rfl rfl hj _ (dev_yn c (k0_dev79_eq c)))) $$ C12 HO
  iintro C12 HO
  iapply (cur (op_w1 m K c 1 13 13)) $$ C13 HO
  iintro C13 HO
  iapply (op_sum m K c 1 13 _ fun _ => rfl) $$ C13
  iintro C13
  rw [wp_ret]; imodintro
  rw [wp_bind, k0_part75_eq_skeleton]; unfold k0_part75_skel
  simp only [Prog.lift, Prog.bind_op, Prog.bind_ret, Prog.pure_eq_ret]
  iapply (op_cp m K c 1 13 hj) $$ C13
  iintro C13
  iapply (cur (op_s2 m K c 1 13 13 14 rfl rfl hj _ (dev_yn c (k0_dev80_eq c)))) $$ C13 HO
  iintro C13 HO
  iapply (cur (op_w1 m K c 1 14 14)) $$ C14 HO
  iintro C14 HO
  iapply (op_sum m K c 1 14 _ fun _ => rfl) $$ C14
  iintro C14
  rw [wp_ret]; imodintro
  rw [wp_bind, k0_part76_eq_skeleton]; unfold k0_part76_skel
  simp only [Prog.lift, Prog.bind_op, Prog.bind_ret, Prog.pure_eq_ret]
  iapply (op_cp m K c 1 14 hj) $$ C14
  iintro C14
  iapply (cur (op_s2 m K c 1 14 14 15 rfl rfl hj _ (dev_yn c (k0_dev81_eq c)))) $$ C14 HO
  iintro C14 HO
  iapply (cur (op_w1 m K c 1 15 15)) $$ C15 HO
  iintro C15 HO
  iapply (op_sum m K c 1 15 _ fun _ => rfl) $$ C15
  iintro C15
  rw [wp_ret]; imodintro
  rw [wp_bind, k0_part77_eq_skeleton]; unfold k0_part77_skel
  simp only [Prog.lift, Prog.bind_op, Prog.bind_ret, Prog.pure_eq_ret]
  iapply (op_cp m K c 1 15 hj) $$ C15
  iintro C15
  iapply (cur (op_s2 m K c 1 15 15 16 rfl rfl hj _ (dev_yn c (k0_dev82_eq c)))) $$ C15 HO
  iintro C15 HO
  iapply (cur (op_w1 m K c 1 16 16)) $$ C16 HO
  iintro C16 HO
  iapply (op_lx m K c 1 16) $$ C16
  iintro C16
  iapply (op_lb m K c 1 16) $$ C16
  iintro C16
  iapply (op_lr m K c 1 16) $$ C16
  iintro %vr16 C16
  rw [wp_ret]; imodintro
  rw [wp_bind, k0_part78_eq_skeleton]; unfold k0_part78_skel
  simp only [Prog.lift, Prog.bind_op, Prog.bind_ret, Prog.pure_eq_ret]
  iapply (op_st m K c 1 16 _ rfl) $$ C16
  iintro C16
  iapply (op_cp m K c 1 16 hj) $$ C16
  iintro C16
  iapply (cur (op_s2 m K c 1 16 16 17 rfl rfl hj _ (dev_yn c (k0_dev83_eq c)))) $$ C16 HO
  iintro C16 HO
  iapply (cur (op_w1 m K c 1 17 17)) $$ C17 HO
  iintro C17 HO
  iapply (op_lx m K c 1 17) $$ C17
  iintro C17
  iapply (op_lb m K c 1 17) $$ C17
  iintro C17
  rw [wp_ret]; imodintro
  rw [wp_bind, k0_part79_eq_skeleton]; unfold k0_part79_skel
  simp only [Prog.lift, Prog.bind_op, Prog.bind_ret, Prog.pure_eq_ret]
  iapply (op_lr m K c 1 17) $$ C17
  iintro %vr17 C17
  iapply (op_st m K c 1 17 _ rfl) $$ C17
  iintro C17
  iapply (op_cp m K c 1 17 hj) $$ C17
  iintro C17
  iapply (cur (op_s2 m K c 1 17 17 18 rfl rfl hj _ (dev_yn c (k0_dev84_eq c)))) $$ C17 HO
  iintro C17 HO
  iapply (cur (op_w1 m K c 1 18 18)) $$ C18 HO
  iintro C18 HO
  iapply (op_lx m K c 1 18) $$ C18
  iintro C18
  iapply (op_lb m K c 1 18) $$ C18
  iintro C18
  rw [wp_ret]; imodintro
  rw [wp_bind, k0_part80_eq_skeleton]; unfold k0_part80_skel
  simp only [Prog.lift, Prog.bind_op, Prog.bind_ret, Prog.pure_eq_ret]
  iapply (op_lr m K c 1 18) $$ C18
  iintro %vr18 C18
  iapply (op_st m K c 1 18 _ rfl) $$ C18
  iintro C18
  iapply (op_cp m K c 1 18 hj) $$ C18
  iintro C18
  iapply (cur (op_s2 m K c 1 18 18 19 rfl rfl hj _ (dev_yn c (k0_dev85_eq c)))) $$ C18 HO
  iintro C18 HO
  iapply (cur (op_w1 m K c 1 19 19)) $$ C19 HO
  iintro C19 HO
  iapply (op_lx m K c 1 19) $$ C19
  iintro C19
  rw [wp_ret]; imodintro
  rw [wp_bind, k0_part81_eq_skeleton]; unfold k0_part81_skel
  simp only [Prog.lift, Prog.bind_op, Prog.bind_ret, Prog.pure_eq_ret]
  iapply (op_lb m K c 1 19) $$ C19
  iintro C19
  iapply (op_lr m K c 1 19) $$ C19
  iintro %vr19 C19
  iapply (op_st m K c 1 19 _ rfl) $$ C19
  iintro C19
  iapply (op_cp m K c 1 19 hj) $$ C19
  iintro C19
  iapply (cur (op_s2 m K c 1 19 19 20 rfl rfl hj _ (dev_yn c (k0_dev86_eq c)))) $$ C19 HO
  iintro C19 HO
  iapply (cur (op_w1 m K c 1 20 20)) $$ C20 HO
  iintro C20 HO
  iapply (op_lx m K c 1 20) $$ C20
  iintro C20
  rw [wp_ret]; imodintro
  rw [wp_bind, k0_part82_eq_skeleton]; unfold k0_part82_skel
  simp only [Prog.lift, Prog.bind_op, Prog.bind_ret, Prog.pure_eq_ret]
  iapply (op_lb m K c 1 20) $$ C20
  iintro C20
  iapply (op_lr m K c 1 20) $$ C20
  iintro %vr20 C20
  iapply (op_st m K c 1 20 _ rfl) $$ C20
  iintro C20
  iapply (op_cp m K c 1 20 hj) $$ C20
  iintro C20
  iapply (cur (op_s2 m K c 1 20 20 21 rfl rfl hj _ (dev_yn c (k0_dev87_eq c)))) $$ C20 HO
  iintro C20 HO
  iapply (cur (op_w1 m K c 1 21 21)) $$ C21 HO
  iintro C21 HO
  rw [wp_ret]; imodintro
  rw [wp_bind, k0_part83_eq_skeleton]; unfold k0_part83_skel
  simp only [Prog.lift, Prog.bind_op, Prog.bind_ret, Prog.pure_eq_ret]
  iapply (op_sum m K c 1 21 _ fun _ => rfl) $$ C21
  iintro C21
  iapply (op_cp m K c 1 21 hj) $$ C21
  iintro C21
  iapply (cur (op_s2 m K c 1 21 21 22 rfl rfl hj _ (dev_yn c (k0_dev88_eq c)))) $$ C21 HO
  iintro C21 HO
  iapply (cur (op_w1 m K c 1 22 22)) $$ C22 HO
  iintro C22 HO
  rw [wp_ret]; imodintro
  rw [wp_bind, k0_part84_eq_skeleton]; unfold k0_part84_skel
  simp only [Prog.lift, Prog.bind_op, Prog.bind_ret, Prog.pure_eq_ret]
  iapply (op_sum m K c 1 22 _ fun _ => rfl) $$ C22
  iintro C22
  iapply (op_cp m K c 1 22 hj) $$ C22
  iintro C22
  iapply (cur (op_s2 m K c 1 22 22 23 rfl rfl hj _ (dev_yn c (k0_dev89_eq c)))) $$ C22 HO
  iintro C22 HO
  rw [wp_ret]; imodintro
  rw [wp_bind, k0_part85_eq_skeleton]; unfold k0_part85_skel
  simp only [Prog.lift, Prog.bind_op, Prog.bind_ret, Prog.pure_eq_ret]
  iapply (cur (op_w1 m K c 1 23 23)) $$ C23 HO
  iintro C23 HO
  iapply (op_sum m K c 1 23 _ fun _ => rfl) $$ C23
  iintro C23
  iapply (op_cp m K c 1 23 hj) $$ C23
  iintro C23
  iapply (cur (op_s2 m K c 1 23 23 24 rfl rfl hj _ (dev_yn c (k0_dev90_eq c)))) $$ C23 HO
  iintro C23 HO
  rw [wp_ret]; imodintro
  rw [wp_bind, k0_part86_eq_skeleton]; unfold k0_part86_skel
  simp only [Prog.lift, Prog.bind_op, Prog.bind_ret, Prog.pure_eq_ret]
  iapply (cur (op_w1 m K c 1 24 24)) $$ C24 HO
  iintro C24 HO
  iapply (op_sum m K c 1 24 _ fun _ => rfl) $$ C24
  iintro C24
  iapply (op_cp m K c 1 24 hj) $$ C24
  iintro C24
  iapply (cur (op_s2 m K c 1 24 24 25 rfl rfl hj _ (dev_yn c (k0_dev91_eq c)))) $$ C24 HO
  iintro C24 HO
  rw [wp_ret]; imodintro
  rw [wp_bind, k0_part87_eq_skeleton]; unfold k0_part87_skel
  simp only [Prog.lift, Prog.bind_op, Prog.bind_ret, Prog.pure_eq_ret]
  iapply (cur (op_w1 m K c 1 25 25)) $$ C25 HO
  iintro C25 HO
  iapply (op_sum m K c 1 25 _ fun _ => rfl) $$ C25
  iintro C25
  iapply (op_cp m K c 1 25 hj) $$ C25
  iintro C25
  iapply (cur (op_s2 m K c 1 25 25 26 rfl rfl hj _ (dev_yn c (k0_dev92_eq c)))) $$ C25 HO
  iintro C25 HO
  rw [wp_ret]; imodintro
  rw [wp_bind, k0_part88_eq_skeleton]; unfold k0_part88_skel
  simp only [Prog.lift, Prog.bind_op, Prog.bind_ret, Prog.pure_eq_ret]
  iapply (cur (op_w1 m K c 1 26 26)) $$ C26 HO
  iintro C26 HO
  iapply (op_sum m K c 1 26 _ fun _ => rfl) $$ C26
  iintro C26
  iapply (op_cp m K c 1 26 hj) $$ C26
  iintro C26
  iapply (cur (op_s2 m K c 1 26 26 27 rfl rfl hj _ (dev_yn c (k0_dev93_eq c)))) $$ C26 HO
  iintro C26 HO
  rw [wp_ret]; imodintro
  rw [wp_bind, k0_part89_eq_skeleton]; unfold k0_part89_skel
  simp only [Prog.lift, Prog.bind_op, Prog.bind_ret, Prog.pure_eq_ret]
  iapply (cur (op_w1 m K c 1 27 27)) $$ C27 HO
  iintro C27 HO
  iapply (op_sum m K c 1 27 _ fun _ => rfl) $$ C27
  iintro C27
  iapply (op_cp m K c 1 27 hj) $$ C27
  iintro C27
  iapply (cur (op_s2 m K c 1 27 27 28 rfl rfl hj _ (dev_yn c (k0_dev94_eq c)))) $$ C27 HO
  iintro C27 HO
  rw [wp_ret]; imodintro
  rw [wp_bind, k0_part90_eq_skeleton]; unfold k0_part90_skel
  simp only [Prog.lift, Prog.bind_op, Prog.bind_ret, Prog.pure_eq_ret]
  iapply (cur (op_w1 m K c 1 28 28)) $$ C28 HO
  iintro C28 HO
  iapply (op_sum m K c 1 28 _ fun _ => rfl) $$ C28
  iintro C28
  iapply (op_cp m K c 1 28 hj) $$ C28
  iintro C28
  iapply (cur (op_s2 m K c 1 28 28 29 rfl rfl hj _ (dev_yn c (k0_dev95_eq c)))) $$ C28 HO
  iintro C28 HO
  rw [wp_ret]; imodintro
  rw [wp_bind, k0_part91_eq_skeleton]; unfold k0_part91_skel
  simp only [Prog.lift, Prog.bind_op, Prog.bind_ret, Prog.pure_eq_ret]
  iapply (cur (op_w1 m K c 1 29 29)) $$ C29 HO
  iintro C29 HO
  iapply (op_sum m K c 1 29 _ fun _ => rfl) $$ C29
  iintro C29
  iapply (op_cp m K c 1 29 hj) $$ C29
  iintro C29
  iapply (cur (op_s2 m K c 1 29 29 30 rfl rfl hj _ (dev_yn c (k0_dev96_eq c)))) $$ C29 HO
  iintro C29 HO
  rw [wp_ret]; imodintro
  rw [wp_bind, k0_part92_eq_skeleton]; unfold k0_part92_skel
  simp only [Prog.lift, Prog.bind_op, Prog.bind_ret, Prog.pure_eq_ret]
  iapply (cur (op_w1 m K c 1 30 30)) $$ C30 HO
  iintro C30 HO
  iapply (op_sum m K c 1 30 _ fun _ => rfl) $$ C30
  iintro C30
  iapply (op_cp m K c 1 30 hj) $$ C30
  iintro C30
  rw [wp_ret]; imodintro
  rw [wp_bind, k0_part93_eq_skeleton]; unfold k0_part93_skel
  simp only [Prog.lift, Prog.bind_op, Prog.bind_ret, Prog.pure_eq_ret]
  iapply (cur (op_s2 m K c 1 30 30 31 rfl rfl hj _ (dev_yn c (k0_dev97_eq c)))) $$ C30 HO
  iintro C30 HO
  iapply (cur (op_w1 m K c 1 31 31)) $$ C31 HO
  iintro C31 HO
  iapply (op_sum m K c 1 31 _ fun _ => rfl) $$ C31
  iintro C31
  iapply (op_cp m K c 1 31 hj) $$ C31
  iintro C31
  rw [wp_ret]; imodintro
  rw [wp_bind, k0_part94_eq_skeleton]; unfold k0_part94_skel
  simp only [Prog.lift, Prog.bind_op, Prog.bind_ret, Prog.pure_eq_ret]
  iapply (cur (op_s2 m K c 1 31 31 32 rfl rfl hj _ (dev_yn c (k0_dev98_eq c)))) $$ C31 HO
  iintro C31 HO
  ihave HO := (owesX_R2_end c) $$ HO
  iapply (cur (op_ws1 m K c 0)) $$ C0 HO
  iintro C0 HO
  iapply (cur (op_wcp m K c 1 0 hj)) $$ C0 HO
  iintro C0 HO
  iapply (cur (op_ws2 m K c 1 0)) $$ C0 HO
  iintro C0 HO
  iapply (cur (op_wr2 m K c 1 0 hj)) $$ C0 HO
  iintro C0 HO
  rw [wp_ret]; imodintro
  rw [wp_bind, k0_part95_eq_skeleton]; unfold k0_part95_skel
  simp only [Prog.lift, Prog.bind_op, Prog.bind_ret, Prog.pure_eq_ret]
  iapply (cur (op_ws1 m K c 1)) $$ C1 HO
  iintro C1 HO
  iapply (cur (op_wcp m K c 1 1 hj)) $$ C1 HO
  iintro C1 HO
  iapply (cur (op_ws2 m K c 1 1)) $$ C1 HO
  iintro C1 HO
  iapply (cur (op_wr2 m K c 1 1 hj)) $$ C1 HO
  iintro C1 HO
  iapply (cur (op_ws1 m K c 2)) $$ C2 HO
  iintro C2 HO
  rw [wp_ret]; imodintro
  rw [wp_bind, k0_part96_eq_skeleton]; unfold k0_part96_skel
  simp only [Prog.lift, Prog.bind_op, Prog.bind_ret, Prog.pure_eq_ret]
  iapply (cur (op_wcp m K c 1 2 hj)) $$ C2 HO
  iintro C2 HO
  iapply (cur (op_ws2 m K c 1 2)) $$ C2 HO
  iintro C2 HO
  iapply (cur (op_wr2 m K c 1 2 hj)) $$ C2 HO
  iintro C2 HO
  iapply (cur (op_ws1 m K c 3)) $$ C3 HO
  iintro C3 HO
  iapply (cur (op_wcp m K c 1 3 hj)) $$ C3 HO
  iintro C3 HO
  rw [wp_ret]; imodintro
  rw [wp_bind, k0_part97_eq_skeleton]; unfold k0_part97_skel
  simp only [Prog.lift, Prog.bind_op, Prog.bind_ret, Prog.pure_eq_ret]
  iapply (cur (op_ws2 m K c 1 3)) $$ C3 HO
  iintro C3 HO
  iapply (cur (op_wr2 m K c 1 3 hj)) $$ C3 HO
  iintro C3 HO
  iapply (cur (op_ws1 m K c 4)) $$ C4 HO
  iintro C4 HO
  iapply (cur (op_wcp m K c 1 4 hj)) $$ C4 HO
  iintro C4 HO
  iapply (cur (op_ws2 m K c 1 4)) $$ C4 HO
  iintro C4 HO
  rw [wp_ret]; imodintro
  rw [wp_bind, k0_part98_eq_skeleton]; unfold k0_part98_skel
  simp only [Prog.lift, Prog.bind_op, Prog.bind_ret, Prog.pure_eq_ret]
  iapply (cur (op_wr2 m K c 1 4 hj)) $$ C4 HO
  iintro C4 HO
  iapply (cur (op_ws1 m K c 5)) $$ C5 HO
  iintro C5 HO
  iapply (cur (op_wcp m K c 1 5 hj)) $$ C5 HO
  iintro C5 HO
  iapply (cur (op_ws2 m K c 1 5)) $$ C5 HO
  iintro C5 HO
  rw [wp_ret]; imodintro
  rw [wp_bind, k0_part99_eq_skeleton]; unfold k0_part99_skel
  simp only [Prog.lift, Prog.bind_op, Prog.bind_ret, Prog.pure_eq_ret]
  iapply (cur (op_wr2 m K c 1 5 hj)) $$ C5 HO
  iintro C5 HO
  iapply (cur (op_ws1 m K c 6)) $$ C6 HO
  iintro C6 HO
  iapply (cur (op_wcp m K c 1 6 hj)) $$ C6 HO
  iintro C6 HO
  iapply (cur (op_ws2 m K c 1 6)) $$ C6 HO
  iintro C6 HO
  iapply (cur (op_wr2 m K c 1 6 hj)) $$ C6 HO
  iintro C6 HO
  rw [wp_ret]; imodintro
  rw [wp_bind, k0_part100_eq_skeleton]; unfold k0_part100_skel
  simp only [Prog.lift, Prog.bind_op, Prog.bind_ret, Prog.pure_eq_ret]
  iapply (cur (op_ws1 m K c 7)) $$ C7 HO
  iintro C7 HO
  iapply (cur (op_wcp m K c 1 7 hj)) $$ C7 HO
  iintro C7 HO
  iapply (cur (op_ws2 m K c 1 7)) $$ C7 HO
  iintro C7 HO
  iapply (cur (op_wr2 m K c 1 7 hj)) $$ C7 HO
  iintro C7 HO
  iapply (cur (op_ws1 m K c 8)) $$ C8 HO
  iintro C8 HO
  rw [wp_ret]; imodintro
  rw [wp_bind, k0_part101_eq_skeleton]; unfold k0_part101_skel
  simp only [Prog.lift, Prog.bind_op, Prog.bind_ret, Prog.pure_eq_ret]
  iapply (cur (op_wcp m K c 1 8 hj)) $$ C8 HO
  iintro C8 HO
  iapply (cur (op_ws2 m K c 1 8)) $$ C8 HO
  iintro C8 HO
  iapply (cur (op_wr2 m K c 1 8 hj)) $$ C8 HO
  iintro C8 HO
  iapply (cur (op_ws1 m K c 9)) $$ C9 HO
  iintro C9 HO
  iapply (cur (op_wcp m K c 1 9 hj)) $$ C9 HO
  iintro C9 HO
  rw [wp_ret]; imodintro
  rw [wp_bind, k0_part102_eq_skeleton]; unfold k0_part102_skel
  simp only [Prog.lift, Prog.bind_op, Prog.bind_ret, Prog.pure_eq_ret]
  iapply (cur (op_ws2 m K c 1 9)) $$ C9 HO
  iintro C9 HO
  iapply (cur (op_wr2 m K c 1 9 hj)) $$ C9 HO
  iintro C9 HO
  iapply (cur (op_ws1 m K c 10)) $$ C10 HO
  iintro C10 HO
  iapply (cur (op_wcp m K c 1 10 hj)) $$ C10 HO
  iintro C10 HO
  iapply (cur (op_ws2 m K c 1 10)) $$ C10 HO
  iintro C10 HO
  rw [wp_ret]; imodintro
  rw [wp_bind, k0_part103_eq_skeleton]; unfold k0_part103_skel
  simp only [Prog.lift, Prog.bind_op, Prog.bind_ret, Prog.pure_eq_ret]
  iapply (cur (op_wr2 m K c 1 10 hj)) $$ C10 HO
  iintro C10 HO
  iapply (cur (op_ws1 m K c 11)) $$ C11 HO
  iintro C11 HO
  iapply (cur (op_wcp m K c 1 11 hj)) $$ C11 HO
  iintro C11 HO
  iapply (cur (op_ws2 m K c 1 11)) $$ C11 HO
  iintro C11 HO
  rw [wp_ret]; imodintro
  rw [wp_bind, k0_part104_eq_skeleton]; unfold k0_part104_skel
  simp only [Prog.lift, Prog.bind_op, Prog.bind_ret, Prog.pure_eq_ret]
  iapply (cur (op_wr2 m K c 1 11 hj)) $$ C11 HO
  iintro C11 HO
  iapply (cur (op_ws1 m K c 12)) $$ C12 HO
  iintro C12 HO
  iapply (cur (op_wcp m K c 1 12 hj)) $$ C12 HO
  iintro C12 HO
  iapply (cur (op_ws2 m K c 1 12)) $$ C12 HO
  iintro C12 HO
  iapply (cur (op_wr2 m K c 1 12 hj)) $$ C12 HO
  iintro C12 HO
  rw [wp_ret]; imodintro
  rw [wp_bind, k0_part105_eq_skeleton]; unfold k0_part105_skel
  simp only [Prog.lift, Prog.bind_op, Prog.bind_ret, Prog.pure_eq_ret]
  iapply (cur (op_ws1 m K c 13)) $$ C13 HO
  iintro C13 HO
  iapply (cur (op_wcp m K c 1 13 hj)) $$ C13 HO
  iintro C13 HO
  iapply (cur (op_ws2 m K c 1 13)) $$ C13 HO
  iintro C13 HO
  iapply (cur (op_wr2 m K c 1 13 hj)) $$ C13 HO
  iintro C13 HO
  iapply (cur (op_ws1 m K c 14)) $$ C14 HO
  iintro C14 HO
  rw [wp_ret]; imodintro
  rw [wp_bind, k0_part106_eq_skeleton]; unfold k0_part106_skel
  simp only [Prog.lift, Prog.bind_op, Prog.bind_ret, Prog.pure_eq_ret]
  iapply (cur (op_wcp m K c 1 14 hj)) $$ C14 HO
  iintro C14 HO
  iapply (cur (op_ws2 m K c 1 14)) $$ C14 HO
  iintro C14 HO
  iapply (cur (op_wr2 m K c 1 14 hj)) $$ C14 HO
  iintro C14 HO
  iapply (cur (op_ws1 m K c 15)) $$ C15 HO
  iintro C15 HO
  iapply (cur (op_wcp m K c 1 15 hj)) $$ C15 HO
  iintro C15 HO
  rw [wp_ret]; imodintro
  rw [wp_bind, k0_part107_eq_skeleton]; unfold k0_part107_skel
  simp only [Prog.lift, Prog.bind_op, Prog.bind_ret, Prog.pure_eq_ret]
  iapply (cur (op_ws2 m K c 1 15)) $$ C15 HO
  iintro C15 HO
  iapply (cur (op_wr2 m K c 1 15 hj)) $$ C15 HO
  iintro C15 HO
  iapply (cur (op_ws1 m K c 16)) $$ C16 HO
  iintro C16 HO
  iapply (cur (op_wcp m K c 1 16 hj)) $$ C16 HO
  iintro C16 HO
  iapply (cur (op_ws2 m K c 1 16)) $$ C16 HO
  iintro C16 HO
  rw [wp_ret]; imodintro
  rw [wp_bind, k0_part108_eq_skeleton]; unfold k0_part108_skel
  simp only [Prog.lift, Prog.bind_op, Prog.bind_ret, Prog.pure_eq_ret]
  iapply (cur (op_wr2 m K c 1 16 hj)) $$ C16 HO
  iintro C16 HO
  iapply (cur (op_ws1 m K c 17)) $$ C17 HO
  iintro C17 HO
  iapply (cur (op_wcp m K c 1 17 hj)) $$ C17 HO
  iintro C17 HO
  iapply (cur (op_ws2 m K c 1 17)) $$ C17 HO
  iintro C17 HO
  rw [wp_ret]; imodintro
  rw [wp_bind, k0_part109_eq_skeleton]; unfold k0_part109_skel
  simp only [Prog.lift, Prog.bind_op, Prog.bind_ret, Prog.pure_eq_ret]
  iapply (cur (op_wr2 m K c 1 17 hj)) $$ C17 HO
  iintro C17 HO
  iapply (cur (op_ws1 m K c 18)) $$ C18 HO
  iintro C18 HO
  iapply (cur (op_wcp m K c 1 18 hj)) $$ C18 HO
  iintro C18 HO
  iapply (cur (op_ws2 m K c 1 18)) $$ C18 HO
  iintro C18 HO
  iapply (cur (op_wr2 m K c 1 18 hj)) $$ C18 HO
  iintro C18 HO
  rw [wp_ret]; imodintro
  rw [wp_bind, k0_part110_eq_skeleton]; unfold k0_part110_skel
  simp only [Prog.lift, Prog.bind_op, Prog.bind_ret, Prog.pure_eq_ret]
  iapply (cur (op_ws1 m K c 19)) $$ C19 HO
  iintro C19 HO
  iapply (cur (op_wcp m K c 1 19 hj)) $$ C19 HO
  iintro C19 HO
  iapply (cur (op_ws2 m K c 1 19)) $$ C19 HO
  iintro C19 HO
  iapply (cur (op_wr2 m K c 1 19 hj)) $$ C19 HO
  iintro C19 HO
  iapply (cur (op_ws1 m K c 20)) $$ C20 HO
  iintro C20 HO
  rw [wp_ret]; imodintro
  rw [wp_bind, k0_part111_eq_skeleton]; unfold k0_part111_skel
  simp only [Prog.lift, Prog.bind_op, Prog.bind_ret, Prog.pure_eq_ret]
  iapply (cur (op_wcp m K c 1 20 hj)) $$ C20 HO
  iintro C20 HO
  iapply (cur (op_ws2 m K c 1 20)) $$ C20 HO
  iintro C20 HO
  iapply (cur (op_wr2 m K c 1 20 hj)) $$ C20 HO
  iintro C20 HO
  iapply (cur (op_ws1 m K c 21)) $$ C21 HO
  iintro C21 HO
  iapply (cur (op_wcp m K c 1 21 hj)) $$ C21 HO
  iintro C21 HO
  rw [wp_ret]; imodintro
  rw [wp_bind, k0_part112_eq_skeleton]; unfold k0_part112_skel
  simp only [Prog.lift, Prog.bind_op, Prog.bind_ret, Prog.pure_eq_ret]
  iapply (cur (op_ws2 m K c 1 21)) $$ C21 HO
  iintro C21 HO
  iapply (cur (op_wr2 m K c 1 21 hj)) $$ C21 HO
  iintro C21 HO
  iapply (cur (op_ws1 m K c 22)) $$ C22 HO
  iintro C22 HO
  iapply (cur (op_wcp m K c 1 22 hj)) $$ C22 HO
  iintro C22 HO
  iapply (cur (op_ws2 m K c 1 22)) $$ C22 HO
  iintro C22 HO
  rw [wp_ret]; imodintro
  rw [wp_bind, k0_part113_eq_skeleton]; unfold k0_part113_skel
  simp only [Prog.lift, Prog.bind_op, Prog.bind_ret, Prog.pure_eq_ret]
  iapply (cur (op_wr2 m K c 1 22 hj)) $$ C22 HO
  iintro C22 HO
  iapply (cur (op_ws1 m K c 23)) $$ C23 HO
  iintro C23 HO
  iapply (cur (op_wcp m K c 1 23 hj)) $$ C23 HO
  iintro C23 HO
  iapply (cur (op_ws2 m K c 1 23)) $$ C23 HO
  iintro C23 HO
  rw [wp_ret]; imodintro
  rw [wp_bind, k0_part114_eq_skeleton]; unfold k0_part114_skel
  simp only [Prog.lift, Prog.bind_op, Prog.bind_ret, Prog.pure_eq_ret]
  iapply (cur (op_wr2 m K c 1 23 hj)) $$ C23 HO
  iintro C23 HO
  iapply (cur (op_ws1 m K c 24)) $$ C24 HO
  iintro C24 HO
  iapply (cur (op_wcp m K c 1 24 hj)) $$ C24 HO
  iintro C24 HO
  iapply (cur (op_ws2 m K c 1 24)) $$ C24 HO
  iintro C24 HO
  iapply (cur (op_wr2 m K c 1 24 hj)) $$ C24 HO
  iintro C24 HO
  rw [wp_ret]; imodintro
  rw [wp_bind, k0_part115_eq_skeleton]; unfold k0_part115_skel
  simp only [Prog.lift, Prog.bind_op, Prog.bind_ret, Prog.pure_eq_ret]
  iapply (cur (op_ws1 m K c 25)) $$ C25 HO
  iintro C25 HO
  iapply (cur (op_wcp m K c 1 25 hj)) $$ C25 HO
  iintro C25 HO
  iapply (cur (op_ws2 m K c 1 25)) $$ C25 HO
  iintro C25 HO
  iapply (cur (op_wr2 m K c 1 25 hj)) $$ C25 HO
  iintro C25 HO
  iapply (cur (op_ws1 m K c 26)) $$ C26 HO
  iintro C26 HO
  rw [wp_ret]; imodintro
  rw [wp_bind, k0_part116_eq_skeleton]; unfold k0_part116_skel
  simp only [Prog.lift, Prog.bind_op, Prog.bind_ret, Prog.pure_eq_ret]
  iapply (cur (op_wcp m K c 1 26 hj)) $$ C26 HO
  iintro C26 HO
  iapply (cur (op_ws2 m K c 1 26)) $$ C26 HO
  iintro C26 HO
  iapply (cur (op_wr2 m K c 1 26 hj)) $$ C26 HO
  iintro C26 HO
  iapply (cur (op_ws1 m K c 27)) $$ C27 HO
  iintro C27 HO
  iapply (cur (op_wcp m K c 1 27 hj)) $$ C27 HO
  iintro C27 HO
  rw [wp_ret]; imodintro
  rw [wp_bind, k0_part117_eq_skeleton]; unfold k0_part117_skel
  simp only [Prog.lift, Prog.bind_op, Prog.bind_ret, Prog.pure_eq_ret]
  iapply (cur (op_ws2 m K c 1 27)) $$ C27 HO
  iintro C27 HO
  iapply (cur (op_wr2 m K c 1 27 hj)) $$ C27 HO
  iintro C27 HO
  iapply (cur (op_ws1 m K c 28)) $$ C28 HO
  iintro C28 HO
  iapply (cur (op_wcp m K c 1 28 hj)) $$ C28 HO
  iintro C28 HO
  iapply (cur (op_ws2 m K c 1 28)) $$ C28 HO
  iintro C28 HO
  rw [wp_ret]; imodintro
  rw [wp_bind, k0_part118_eq_skeleton]; unfold k0_part118_skel
  simp only [Prog.lift, Prog.bind_op, Prog.bind_ret, Prog.pure_eq_ret]
  iapply (cur (op_wr2 m K c 1 28 hj)) $$ C28 HO
  iintro C28 HO
  iapply (cur (op_ws1 m K c 29)) $$ C29 HO
  iintro C29 HO
  iapply (cur (op_wcp m K c 1 29 hj)) $$ C29 HO
  iintro C29 HO
  iapply (cur (op_ws2 m K c 1 29)) $$ C29 HO
  iintro C29 HO
  rw [wp_ret]; imodintro
  rw [wp_bind, k0_part119_eq_skeleton]; unfold k0_part119_skel
  simp only [Prog.lift, Prog.bind_op, Prog.bind_ret, Prog.pure_eq_ret]
  iapply (cur (op_wr2 m K c 1 29 hj)) $$ C29 HO
  iintro C29 HO
  iapply (cur (op_ws1 m K c 30)) $$ C30 HO
  iintro C30 HO
  iapply (cur (op_wcp m K c 1 30 hj)) $$ C30 HO
  iintro C30 HO
  iapply (cur (op_ws2 m K c 1 30)) $$ C30 HO
  iintro C30 HO
  iapply (cur (op_wr2 m K c 1 30 hj)) $$ C30 HO
  iintro C30 HO
  rw [wp_ret]; imodintro
  rw [wp_ret]; imodintro; iframe

end Cert.KernelIdeal.Coll

end
-- ==== Proof.KI.Main.lean ====
import proofs.«900269_g7700000000000270_dist_redx_gaty_m2048_n1024_v7x_xy2x2_f32_1_alg».proof.Proof.KI.Ops1
import proofs.«900269_g7700000000000270_dist_redx_gaty_m2048_n1024_v7x_xy2x2_f32_1_alg».proof.Proof.KI.Ops2
import proofs.«900269_g7700000000000270_dist_redx_gaty_m2048_n1024_v7x_xy2x2_f32_1_alg».proof.Proof.KI.Devs
import proofs.«900269_g7700000000000270_dist_redx_gaty_m2048_n1024_v7x_xy2x2_f32_1_alg».proof.Proof.KI.Glue
import proofs.«900269_g7700000000000270_dist_redx_gaty_m2048_n1024_v7x_xy2x2_f32_1_alg».proof.Proof.KI.Entry
import proofs.«900269_g7700000000000270_dist_redx_gaty_m2048_n1024_v7x_xy2x2_f32_1_alg».proof.Proof.KI.Branch0
import proofs.«900269_g7700000000000270_dist_redx_gaty_m2048_n1024_v7x_xy2x2_f32_1_alg».proof.Proof.KI.Branch1

set_option maxRecDepth 65536

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KIx → ℕ) (c : Dev nD)

set_option maxHeartbeats 8000000 in
/-- The whole body on a device of column half `j`: the barrier, the 32 first-stage issues, that half's pipeline, the last chunk's waits. -/
theorem run_body (j : Fin 2) (hj : col c = j) :
    entryRes m K c ⊢ wp frame (wpE (defs₀ (F := F)) 𝒱₀ (c : Thread nD τ) none) Set.univ
      (atBufs cc0_body)
      (fun _ => iprop((bigSep Finset.univ fun k : Fin 32 => ck9 m K c j k) ∗ owesX c 0)) := by
  have h01 : ∀ j : Fin 2, j = 0 ∨ j = 1 := by decide
  rw [cc0_body_eq_skeleton]; unfold atBufs cc0_body_skel entryRes
  iintro E
  rw [wp_bind, k0_part121_eq_skeleton]; unfold k0_part121_skel
  simp only [Prog.lift, Prog.bind_op, Prog.bind_ret, Prog.pure_eq_ret, semSignalWord, semWaitWord, wp_deviceId]
  iapply (op_barrier m K c j hj _ _ (dev_xn c (k0_dev1_eq c)) (dev_yn c (k0_dev2_eq c))) $$ E
  iintro ⟨HB, HO⟩
  ihave HB := (Entails.of_eq (bigSep_fin32 _)) $$ HB
  icases HB with ⟨C0, C1, C2, C3, C4, C5, C6, C7, C8, C9, C10, C11, C12, C13, C14, C15, C16, C17, C18, C19, C20, C21, C22, C23, C24, C25, C26, C27, C28, C29, C30, C31⟩
  iapply (cur (op_s1 m K c j 0 0 1 rfl rfl _ (dev_xn c (k0_dev3_eq c)))) $$ C0 HO
  iintro C0 HO
  rw [wp_ret]; imodintro
  rw [wp_bind, k0_part122_eq_skeleton]; unfold k0_part122_skel
  simp only [Prog.lift, Prog.bind_op, Prog.bind_ret, Prog.pure_eq_ret]
  iapply (cur (op_s1 m K c j 1 1 2 rfl rfl _ (dev_xn c (k0_dev4_eq c)))) $$ C1 HO
  iintro C1 HO
  iapply (cur (op_s1 m K c j 2 2 3 rfl rfl _ (dev_xn c (k0_dev5_eq c)))) $$ C2 HO
  iintro C2 HO
  rw [wp_ret]; imodintro
  rw [wp_bind, k0_part123_eq_skeleton]; unfold k0_part123_skel
  simp only [Prog.lift, Prog.bind_op, Prog.bind_ret, Prog.pure_eq_ret]
  iapply (cur (op_s1 m K c j 3 3 4 rfl rfl _ (dev_xn c (k0_dev6_eq c)))) $$ C3 HO
  iintro C3 HO
  iapply (cur (op_s1 m K c j 4 4 5 rfl rfl _ (dev_xn c (k0_dev7_eq c)))) $$ C4 HO
  iintro C4 HO
  iapply (cur (op_s1 m K c j 5 5 6 rfl rfl _ (dev_xn c (k0_dev8_eq c)))) $$ C5 HO
  iintro C5 HO
  rw [wp_ret]; imodintro
  rw [wp_bind, k0_part124_eq_skeleton]; unfold k0_part124_skel
  simp only [Prog.lift, Prog.bind_op, Prog.bind_ret, Prog.pure_eq_ret]
  iapply (cur (op_s1 m K c j 6 6 7 rfl rfl _ (dev_xn c (k0_dev9_eq c)))) $$ C6 HO
  iintro C6 HO
  iapply (cur (op_s1 m K c j 7 7 8 rfl rfl _ (dev_xn c (k0_dev10_eq c)))) $$ C7 HO
  iintro C7 HO
  iapply (cur (op_s1 m K c j 8 8 9 rfl rfl _ (dev_xn c (k0_dev11_eq c)))) $$ C8 HO
  iintro C8 HO
  rw [wp_ret]; imodintro
  rw [wp_bind, k0_part125_eq_skeleton]; unfold k0_part125_skel
  simp only [Prog.lift, Prog.bind_op, Prog.bind_ret, Prog.pure_eq_ret]
  iapply (cur (op_s1 m K c j 9 9 10 rfl rfl _ (dev_xn c (k0_dev12_eq c)))) $$ C9 HO
  iintro C9 HO
  iapply (cur (op_s1 m K c j 10 10 11 rfl rfl _ (dev_xn c (k0_dev13_eq c)))) $$ C10 HO
  iintro C10 HO
  rw [wp_ret]; imodintro
  rw [wp_bind, k0_part126_eq_skeleton]; unfold k0_part126_skel
  simp only [Prog.lift, Prog.bind_op, Prog.bind_ret, Prog.pure_eq_ret]
  iapply (cur (op_s1 m K c j 11 11 12 rfl rfl _ (dev_xn c (k0_dev14_eq c)))) $$ C11 HO
  iintro C11 HO
  iapply (cur (op_s1 m K c j 12 12 13 rfl rfl _ (dev_xn c (k0_dev15_eq c)))) $$ C12 HO
  iintro C12 HO
  iapply (cur (op_s1 m K c j 13 13 14 rfl rfl _ (dev_xn c (k0_dev16_eq c)))) $$ C13 HO
  iintro C13 HO
  rw [wp_ret]; imodintro
  rw [wp_bind, k0_part127_eq_skeleton]; unfold k0_part127_skel
  simp only [Prog.lift, Prog.bind_op, Prog.bind_ret, Prog.pure_eq_ret]
  iapply (cur (op_s1 m K c j 14 14 15 rfl rfl _ (dev_xn c (k0_dev17_eq c)))) $$ C14 HO
  iintro C14 HO
  iapply (cur (op_s1 m K c j 15 15 16 rfl rfl _ (dev_xn c (k0_dev18_eq c)))) $$ C15 HO
  iintro C15 HO
  iapply (cur (op_s1 m K c j 16 16 17 rfl rfl _ (dev_xn c (k0_dev19_eq c)))) $$ C16 HO
  iintro C16 HO
  rw [wp_ret]; imodintro
  rw [wp_bind, k0_part128_eq_skeleton]; unfold k0_part128_skel
  simp only [Prog.lift, Prog.bind_op, Prog.bind_ret, Prog.pure_eq_ret]
  iapply (cur (op_s1 m K c j 17 17 18 rfl rfl _ (dev_xn c (k0_dev20_eq c)))) $$ C17 HO
  iintro C17 HO
  iapply (cur (op_s1 m K c j 18 18 19 rfl rfl _ (dev_xn c (k0_dev21_eq c)))) $$ C18 HO
  iintro C18 HO
  iapply (cur (op_s1 m K c j 19 19 20 rfl rfl _ (dev_xn c (k0_dev22_eq c)))) $$ C19 HO
  iintro C19 HO
  rw [wp_ret]; imodintro
  rw [wp_bind, k0_part129_eq_skeleton]; unfold k0_part129_skel
  simp only [Prog.lift, Prog.bind_op, Prog.bind_ret, Prog.pure_eq_ret]
  iapply (cur (op_s1 m K c j 20 20 21 rfl rfl _ (dev_xn c (k0_dev23_eq c)))) $$ C20 HO
  iintro C20 HO
  iapply (cur (op_s1 m K c j 21 21 22 rfl rfl _ (dev_xn c (k0_dev24_eq c)))) $$ C21 HO
  iintro C21 HO
  rw [wp_ret]; imodintro
  rw [wp_bind, k0_part130_eq_skeleton]; unfold k0_part130_skel
  simp only [Prog.lift, Prog.bind_op, Prog.bind_ret, Prog.pure_eq_ret]
  iapply (cur (op_s1 m K c j 22 22 23 rfl rfl _ (dev_xn c (k0_dev25_eq c)))) $$ C22 HO
  iintro C22 HO
  iapply (cur (op_s1 m K c j 23 23 24 rfl rfl _ (dev_xn c (k0_dev26_eq c)))) $$ C23 HO
  iintro C23 HO
  iapply (cur (op_s1 m K c j 24 24 25 rfl rfl _ (dev_xn c (k0_dev27_eq c)))) $$ C24 HO
  iintro C24 HO
  rw [wp_ret]; imodintro
  rw [wp_bind, k0_part131_eq_skeleton]; unfold k0_part131_skel
  simp only [Prog.lift, Prog.bind_op, Prog.bind_ret, Prog.pure_eq_ret]
  iapply (cur (op_s1 m K c j 25 25 26 rfl rfl _ (dev_xn c (k0_dev28_eq c)))) $$ C25 HO
  iintro C25 HO
  iapply (cur (op_s1 m K c j 26 26 27 rfl rfl _ (dev_xn c (k0_dev29_eq c)))) $$ C26 HO
  iintro C26 HO
  iapply (cur (op_s1 m K c j 27 27 28 rfl rfl _ (dev_xn c (k0_dev30_eq c)))) $$ C27 HO
  iintro C27 HO
  rw [wp_ret]; imodintro
  rw [wp_bind, k0_part132_eq_skeleton]; unfold k0_part132_skel
  simp only [Prog.lift, Prog.bind_op, Prog.bind_ret, Prog.pure_eq_ret]
  iapply (cur (op_s1 m K c j 28 28 29 rfl rfl _ (dev_xn c (k0_dev31_eq c)))) $$ C28 HO
  iintro C28 HO
  iapply (cur (op_s1 m K c j 29 29 30 rfl rfl _ (dev_xn c (k0_dev32_eq c)))) $$ C29 HO
  iintro C29 HO
  iapply (cur (op_s1 m K c j 30 30 31 rfl rfl _ (dev_xn c (k0_dev33_eq c)))) $$ C30 HO
  iintro C30 HO
  rw [wp_ret]; imodintro
  rw [wp_bind, k0_part133_eq_skeleton]; unfold k0_part133_skel
  simp only [Prog.lift, Prog.bind_op, Prog.bind_ret, Prog.pure_eq_ret]
  iapply (cur (op_s1 m K c j 31 31 32 rfl rfl _ (dev_xn c (k0_dev34_eq c)))) $$ C31 HO
  iintro C31 HO
  ihave HO := (owesX_R1_end c) $$ HO
  rw [wp_ret]; imodintro
  rw [wp_bind, k0_part134_eq_skeleton]; unfold k0_part134_skel
  simp only [Prog.lift, Prog.bind_op, Prog.bind_ret, Prog.pure_eq_ret]
  rcases h01 j with rfl | rfl
  · have hc1 : k0_cond1 c = 1#1 := (cond1_iff c).2 hj
    have hc2 : ¬ k0_cond2 c = 1#1 := fun h => by have h' := (cond2_iff c).1 h; rw [hj] at h'; exact absurd h' (by decide)
    rw [dif_pos hc1]
    try simp only [Prog.lift, Prog.bind_op, Prog.bind_ret, Prog.pure_eq_ret]
    iapply (seq c (run_part60 m K c hj _ _ _ _ _ _ _ _ _ _ _ _ _ _ _ _ _ _ _ _ _ _ _ _ _ _ _ _ _ _ _ _ _ _ _)) $$ [C0 C1 C2 C3 C4 C5 C6 C7 C8 C9 C10 C11 C12 C13 C14 C15 C16 C17 C18 C19 C20 C21 C22 C23 C24 C25 C26 C27 C28 C29 C30 C31 HO]
    · iframe
    iintro %rr ⟨C0, C1, C2, C3, C4, C5, C6, C7, C8, C9, C10, C11, C12, C13, C14, C15, C16, C17, C18, C19, C20, C21, C22, C23, C24, C25, C26, C27, C28, C29, C30, C31, HO⟩
    try dsimp only
    iapply (cur (op_ws1 m K c 31)) $$ C31 HO
    iintro C31 HO
    iapply (cur (op_wcp m K c 0 31 hj)) $$ C31 HO
    iintro C31 HO
    iapply (cur (op_ws2 m K c 0 31)) $$ C31 HO
    iintro C31 HO
    iapply (cur (op_wr2 m K c 0 31 hj)) $$ C31 HO
    iintro C31 HO
    rw [wp_ret]; imodintro
    rw [dif_neg hc2]
    try simp only [Prog.lift, Prog.bind_op, Prog.bind_ret, Prog.pure_eq_ret]
    rw [wp_ret]; imodintro
    isplitr [HO]
    · rw [bigSep_fin32]
      iframe
    · iexact HO
  · have hc1 : ¬ k0_cond1 c = 1#1 := fun h => by have h' := (cond1_iff c).1 h; rw [hj] at h'; exact absurd h' (by decide)
    have hc2 : k0_cond2 c = 1#1 := (cond2_iff c).2 hj
    rw [dif_neg hc1]
    try simp only [Prog.lift, Prog.bind_op, Prog.bind_ret, Prog.pure_eq_ret]
    rw [wp_ret]; imodintro
    rw [dif_pos hc2]
    try simp only [Prog.lift, Prog.bind_op, Prog.bind_ret, Prog.pure_eq_ret]
    iapply (seq c (run_part120 m K c hj _ _ _ _ _ _ _ _ _ _ _ _ _ _ _ _ _ _ _ _ _ _ _ _ _ _ _ _ _ _ _ _ _ _ _)) $$ [C0 C1 C2 C3 C4 C5 C6 C7 C8 C9 C10 C11 C12 C13 C14 C15 C16 C17 C18 C19 C20 C21 C22 C23 C24 C25 C26 C27 C28 C29 C30 C31 HO]
    · iframe
    iintro %rr ⟨C0, C1, C2, C3, C4, C5, C6, C7, C8, C9, C10, C11, C12, C13, C14, C15, C16, C17, C18, C19, C20, C21, C22, C23, C24, C25, C26, C27, C28, C29, C30, C31, HO⟩
    try dsimp only
    iapply (cur (op_ws1 m K c 31)) $$ C31 HO
    iintro C31 HO
    iapply (cur (op_wcp m K c 1 31 hj)) $$ C31 HO
    iintro C31 HO
    iapply (cur (op_ws2 m K c 1 31)) $$ C31 HO
    iintro C31 HO
    iapply (cur (op_wr2 m K c 1 31 hj)) $$ C31 HO
    iintro C31 HO
    rw [wp_ret]; imodintro
    isplitr [HO]
    · rw [bigSep_fin32]
      iframe
    · iexact HO

end Cert.KernelIdeal.Coll

end
-- ==== Proof.KI.Exit.lean ====
import proofs.«900269_g7700000000000270_dist_redx_gaty_m2048_n1024_v7x_xy2x2_f32_1_alg».proof.Proof.KI.Chunk

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Exit
variable (K : KIx → ℕ) (c : Dev nD) (j : Fin 2)

theorem cell_closed (kd : Kd) (k : Fin 32) :
    iprop(records m K ∗ atPos ER (dcell c kd k) 1 ∅ 0) ⊢ (iprop(|={Set.univ}=> semVal (dcell c kd k) 0) : sProp 𝕄) := by
  iintro ⟨#HR, Hat⟩
  ihave HI := (inv_at m K (c, some (kd, k))) $$ HR
  iapply (Rounds.cell_close ER (Rd m) (Set.mem_univ (K (c, some (kd, k)))) (fun h => h) (R := 0 + 1) (duties_later m (dcell c kd k)))
  isplitl [HI]
  · iexact HI
  · iexact Hat

theorem bigSep_Kd (Φ : Kd → sProp 𝕄) :
    bigSep Finset.univ Φ = iprop(Φ .s1 ∗ Φ .r1 ∗ Φ .s2 ∗ Φ .r2 ∗ Φ .cp) := by
  rw [bigSep_univ_eq_bigSepL [.s1, .r1, .s2, .r2, .cp] (by decide) (by decide)]
  rfl

theorem chunk_close (k : Fin 32) :
    ck9 m K c j k ⊢ iprop(|={Set.univ}=> (X m c k fullShare ∗ Bo m c k ∗ Oo' m c j k ∗ Qq' m c j k ∗ Rr m c k fullShare
      ∗ bigSep Finset.univ fun kd : Kd => semVal (dcell c kd k) 0)) := by
  unfold ck9
  iintro ⟨⟨#HR, -⟩, HX, HB, HO, HQ, HRr, H1, H2, H3, H4, H5⟩
  imod (cell_closed m K c .s1 k) $$ [H1] with Z1
  · isplitr; · iexact HR
    iexact H1
  imod (cell_closed m K c .r1 k) $$ [H2] with Z2
  · isplitr; · iexact HR
    iexact H2
  imod (cell_closed m K c .s2 k) $$ [H3] with Z3
  · isplitr; · iexact HR
    iexact H3
  imod (cell_closed m K c .r2 k) $$ [H4] with Z4
  · isplitr; · iexact HR
    iexact H4
  imod (cell_closed m K c .cp k) $$ [H5] with Z5
  · isplitr; · iexact HR
    iexact H5
  imodintro
  rw [bigSep_Kd]
  iframe

theorem out_join :
    iprop((bigSep Finset.univ fun k : Fin 32 => Oo' m c j k) ∗ (bigSep Finset.univ fun k : Fin 32 => Qq' m c j k))
      ⊢ ((((c : Thread nD τ).loc main_v1) ↦{fullShare} outv m c) : sProp 𝕄) := by
  rw [split_o]
  fin_cases j
  · exact .rfl
  · exact sep_comm.1

theorem cells_prod :
    (bigSep Finset.univ fun k : Fin 32 => bigSep Finset.univ fun kd : Kd => (semVal (dcell c kd k) 0 : sProp 𝕄))
      = bigSep Finset.univ fun p : Kd × Fin 32 => semVal (dcell c p.1 p.2) 0 := by
  rw [bigSep_univ_prod, bigSep_univ_comm]

theorem exit_assemble (hj : col c = j) :
    (bigSep Finset.univ fun k : Fin 32 => ck9 m K c j k)
      ⊢ |={Set.univ}=> iprop(Φ₁ m c ∗ (((c : Thread nD τ).loc cc0_stg0_0) ↦{fullShare} xs m c)) := by
  refine ((bigSep_mono fun k _ => chunk_close m K c j k).trans (bigSep_fupd _ _)).trans (BI.fupd_mono (PROP := sProp 𝕄) ?_)
  rw [bigSep_sep', bigSep_sep', bigSep_sep', bigSep_sep', bigSep_sep', cells_prod c]
  unfold Φ₁
  iintro ⟨HX, HB, HO, HQ, HR, HZ⟩
  isplitr [HX]
  · isplitl [HO HQ]
    · iapply (out_join m c j)
      isplitl [HO]
      · iexact HO
      · iexact HQ
    isplitl [HB]
    · iexists (xs m (xn c))
      rw [split_b]
      iexact HB
    isplitl [HR]
    · iexists (red m c)
      rw [split_r]
      iexact HR
    · iexact HZ
  · rw [split_x]
    iexact HX

end Exit

end Cert.KernelIdeal.Coll

end
-- ==== Proof.KI.Body.lean ====
import proofs.«900269_g7700000000000270_dist_redx_gaty_m2048_n1024_v7x_xy2x2_f32_1_alg».proof.Proof.KI.Main
import proofs.«900269_g7700000000000270_dist_redx_gaty_m2048_n1024_v7x_xy2x2_f32_1_alg».proof.Proof.KI.Exit
import proofs.«900269_g7700000000000270_dist_redx_gaty_m2048_n1024_v7x_xy2x2_f32_1_alg».proof.Proof.KI.Entry

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_x (c : Dev nD) (t : Fin cfg0.N) (d) : (dats (F := F) m ρ 0 c).before (0 : Fin 1) t d = xs m c := by
  rw [fin_N0 t]; unfold Dat.before; rw [if_pos (fetch0_0 _)]; rfl

theorem body_exit (K : KIx → ℕ) (c : Dev nD) (j : Fin 2) (hj : col c = j) (a : PUnit) :
    iprop((bigSep Finset.univ fun k : Fin 32 => ck9 m K c j k) ∗ owesX c 0)
      ⊢ |={Set.univ}=> iprop((dats m ρ 0 c).Φ t0_0.succ ∗ (dats m ρ 0 c).owesAt () t0_0.succ
            ∗ ∃ f, ⌜f = (dats m ρ 0 c).after 0 t0_0⌝ ∗ ((c : Thread nD τ).loc cc0_stg0_0) ↦{fullShare} f) := by
  unfold owesX
  rw [show (dats (F := F) m ρ 0 c).Φ t0_0.succ = Φ₁ m c from rfl]
  iintro ⟨Hck, ⟨%W, HO⟩⟩
  imod (exit_assemble m K c j hj) $$ Hck with ⟨HΦ, Hx⟩
  imodintro
  isplitl [HΦ]; · iexact HΦ
  isplitl [HO]
  · iexists W
    isplitr; · ipureintro; exact fun _ _ => Or.inl trivial
    iexact HO
  iexists _
  isplitr; · ipureintro; rfl
  iexact Hx

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m c ∗ (dats m ρ 0 c).owesAt () t0_0.castSucc ∗ _) ⊢ wp frame (wpE (defs₀ (F := F)) 𝒱₀ (c : Thread nD τ) none) Set.univ
    (atBufs cc0_body) _
  refine .trans ?_ (wp_fupd frame (wpE (defs₀ (F := F)) 𝒱₀ (c : Thread nD τ) none) Set.univ _ _)
  unfold Φ₀ start
  iintro ⟨⟨⟨⟨%K, #HR⟩, Hlin, #Hlev, Hout⟩, Hb, Hr⟩, ⟨%W, -, HO⟩, ⟨%d, %f, %hf, Hx⟩⟩
  rw [before_x m ρ c t0_0 d] at hf
  subst hf
  have hentry : iprop(records m K ∗ lin c ∗ levAts L lv
        ∗ (((c : Thread nD τ).loc main_v1) ↦{fullShare} m ((c : Thread nD τ).loc main_v1))
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (((c : Thread nD τ).loc cc0_stg0_0) ↦{fullShare} xs m c)
        ∗ owes (c : Thread nD τ) (O₀ c) W) ⊢ entryRes m K c := by
    unfold entryRes owesX
    iintro ⟨H1, H2, H3, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexists W; iexact H8
  ihave HE := hentry $$ [Hlin Hout Hb Hr Hx HO]
  · isplitr; · iexact HR
    isplitl [Hlin]; · iexact Hlin
    isplitr; · iexact Hlev
    isplitl [Hout]; · iexact Hout
    isplitl [Hb]; · iexact Hb
    isplitl [Hr]; · iexact Hr
    isplitl [Hx]; · iexact Hx
    iexact HO
  iapply (wp_apply c (run_body m K c (col c) rfl)) $$ HE
  iintro %a H
  iapply (body_exit m ρ K c (col c) rfl a)
  iexact H

end Cert.KernelIdeal.Coll

end
-- ==== Proof.KI.Launch.lean ====
import proofs.«900269_g7700000000000270_dist_redx_gaty_m2048_n1024_v7x_xy2x2_f32_1_alg».proof.Proof.KI.Body
import proofs.«900269_g7700000000000270_dist_redx_gaty_m2048_n1024_v7x_xy2x2_f32_1_alg».proof.Proof.KI.Waits

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Kd × Fin 32 → SemLoc sig := fun p => .dma (dsem p.1 p.2)

theorem stage_sem (w : Fin cfg0.W) (s : Fin (cfg0.spec w).nbuf) : (cfg0.spec w).sem s = cc0_sem0_0 := by
  fin_cases w; fin_cases s; rfl

theorem osem_scoped (p : Kd × Fin 32) : (osem p).isScoped .tc = true := by
  obtain ⟨kd, k⟩ := p
  cases kd <;> (revert k; decide +kernel)

theorem ownSemFacts : Pipeline.OwnSemFacts cfg0.spec osem :=
  ⟨osem_scoped, fun p p' h => dsem_injective (SemLoc.dma.inj h), fun p w s h => by
    have h' := congrArg kindOf (SemLoc.dma.inj h)
    rw [stage_sem, kindOf_dsem, kindOf_stage] at h'
    exact absurd h' (Option.some_ne_none _)⟩

theorem share_eq (c : Dev nD) (w : Fin cfg0.W) : (dats (F := F) m ρ 0 c).share w = fullShare := by unfold Dat.share; split <;> rfl

theorem kcell_injective : Function.Injective (kcell : KIx → GSem nD τ sig) := by
  rintro ⟨c, o⟩ ⟨c', o'⟩ h
  have h1 : c = c' := by
    have := congrArg (fun g : GSem nD τ sig => g.1.1) h
    rcases o with _ | ⟨kd, k⟩ <;> rcases o' with _ | ⟨kd', k'⟩ <;> exact this
  subst h1
  have h2 := congrArg Prod.snd h
  rcases o with _ | ⟨kd, k⟩ <;> rcases o' with _ | ⟨kd', k'⟩
  · rfl
  · exact absurd h2 (fun h' => by cases h')
  · exact absurd h2 (fun h' => by cases h')
  · have := dsem_injective (a₁ := (kd, k)) (a₂ := (kd', k')) (SemLoc.dma.inj h2)
    rw [this]

def protoCells : Finset (GSem nD τ sig) := Finset.univ.map ⟨kcell, kcell_injective⟩

abbrev tokOf (cj : Dev nD × (Bool ⊕ (Kd × Fin 32))) : GSem nD τ sig × ℕ × Bool := match cj.2 with
  | .inl b => (barCell cj.1, 0, b)
  | .inr p => (dcell cj.1 p.1 p.2, 0, false)

theorem tokOf_injective : Function.Injective (tokOf : Dev nD × (Bool ⊕ (Kd × Fin 32)) → GSem nD τ sig × ℕ × Bool) := by
  rintro ⟨c, j⟩ ⟨c', j'⟩ h
  have h1 : c = c' := by
    have := congrArg (fun x : GSem nD τ sig × ℕ × Bool => x.1.1.1) h
    rcases j with b | p <;> rcases j' with b' | p' <;> exact this
  subst h1
  have h2 := congrArg (fun x : GSem nD τ sig × ℕ × Bool => (x.1.2, x.2.2)) h
  rcases j with b | p <;> rcases j' with b' | p'
  · have : b = b' := congrArg Prod.snd h2
    rw [this]
  · exact absurd (congrArg Prod.fst h2) (fun h' => by cases h')
  · exact absurd (congrArg Prod.fst h2) (fun h' => by cases h')
  · have : p = p' := dsem_injective (SemLoc.dma.inj (congrArg Prod.fst h2))
    rw [this]

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun b : Bool => dutyTok ER (barCell c) 0 b)
    ∗ bigSep Finset.univ fun p : Kd × Fin 32 => dutyTok ER (dcell c p.1 p.2) 0 false)

def G (c : Dev nD) : sProp 𝕄 :=
  iprop((bigSep Finset.univ fun o : Option (Kd × Fin 32) => roundState ER (Rd m) (kcell (c, o)) 0)
    ∗ (bigSep Finset.univ fun o : Option (Kd × Fin 32) => iprop(atPos ER (kcell (c, o)) 0 ∅ 0 ∗ reached ER (kcell (c, o)) 0)) ∗ toks c)

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun o : Option (Kd × Fin 32) => Φ (kcell (c, o)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_univ_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext x; cases x <;> simp
  rw [h, bigSep_insert (by simp), bigSep_map]; rfl

theorem bigSep_kd (Φ : Kd → sProp 𝕄) : bigSep Finset.univ Φ = iprop(Φ .s1 ∗ Φ .r1 ∗ Φ .s2 ∗ Φ .r2 ∗ Φ .cp) :=
  bigSep_univ_eq_bigSepL [Kd.s1, Kd.r1, Kd.s2, Kd.r2, Kd.cp] (by decide) (by decide) Φ

theorem bigSep_bool (Φ : Bool → sProp 𝕄) : bigSep Finset.univ Φ = iprop(Φ false ∗ Φ true) :=
  bigSep_univ_eq_bigSepL [false, true] (by decide) (by decide) Φ

theorem bigSep_dcells (Φ : Kd × Fin 32 → sProp 𝕄) :
    bigSep Finset.univ Φ = iprop((bigSep Finset.univ fun k => Φ (.s1, k)) ∗ (bigSep Finset.univ fun k => Φ (.r1, k))
      ∗ (bigSep Finset.univ fun k => Φ (.s2, k)) ∗ (bigSep Finset.univ fun k => Φ (.r2, k)) ∗ (bigSep Finset.univ fun k => Φ (.cp, k))) := by
  rw [bigSep_univ_prod, bigSep_kd]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun p : Kd × Fin 32 => semVal (kcell (c, some p)) 0 := by
  unfold Pipeline.ownSems0
  exact bigSep_congr fun p _ => by obtain ⟨kd, k⟩ := p; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Kd × Fin 32) => semVal (kcell (c, o)) 0 : sProp 𝕄) := by
  rw [unscopedSems0_eq, bigSep_univ_option, ownSems0_eq]
  iintro ⟨HS, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (Kd × Fin 32) => iprop(∃ κ : ℕ, cellInv ER (Rd m) κ (kcell (c, o))))
          ∗ (bigSep Finset.univ fun o : Option (Kd × Fin 32) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (Kd × Fin 32) => semVal (kcell (c, o)) 0)
        ∗ bigSep Finset.univ fun o : Option (Kd × Fin 32) => roundState ER (Rd m) (kcell (c, o)) 0)
      ⊢ (|={Set.univ}=> bigSep Finset.univ fun o : Option (Kd × Fin 32) => iprop(∃ κ : ℕ, cellInv ER (Rd m) κ (kcell (c, o))) : sProp 𝕄) from by
        rw [← bigSep_sep']
        exact (bigSep_mono fun o _ => (Rounds.body_intro ER (Rd m) (kcell (c, o))).trans inv_alloc).trans (bigSep_fupd _ _)) $$ [Hv Hst] with Hinv
  · isplitl [Hv] <;> iassumption
  imodintro
  iframe

def chunkG (c : Dev nD) (k : Fin 32) : sProp 𝕄 :=
  iprop(atPos ER (dcell c .s1 k) 0 ∅ 0 ∗ atPos ER (dcell c .r1 k) 0 ∅ 0 ∗ atPos ER (dcell c .s2 k) 0 ∅ 0
    ∗ atPos ER (dcell c .r2 k) 0 ∅ 0 ∗ atPos ER (dcell c .cp k) 0 ∅ 0
    ∗ dutyTok ER (dcell (xn c) .r1 k) 0 false ∗ dutyTok ER (dcell (yn c) .r2 k) 0 false
    ∗ dutyTok ER (dcell c .s1 k) 0 false ∗ dutyTok ER (dcell c .s2 k) 0 false ∗ dutyTok ER (dcell c .cp k) 0 false)
def linG (c : Dev nD) : sProp 𝕄 :=
  iprop(atPos ER (barCell c) 0 ∅ 0 ∗ dutyTok ER (barCell (xn c)) 0 false ∗ dutyTok ER (barCell (yn c)) 0 true
    ∗ bigSep Finset.univ fun k : Fin 32 => chunkG c k)

def G' (c : Dev nD) : sProp 𝕄 := iprop((∃ K, records m K) ∗ linG c)

theorem lin_intro (c : Dev nD) :
    iprop(linG c ∗ cred (tallyAt (barCell c) () 2) ∗ (bigSep Finset.univ fun k : Fin 32 => cred (tallyAt (dcell c .r1 k) () N))
        ∗ bigSep Finset.univ fun k : Fin 32 => cred (tallyAt (dcell c .r2 k) () N))
      ⊢ (lin c : sProp 𝕄) := by
  unfold lin linG chunkTok chunkG
  simp only [bigSep_sep']
  iintro ⟨⟨Hb, Htx, Hty, Ha1, Ha2, Ha3, Ha4, Ha5, Ht1, Ht2, Ht3, Ht4, Ht5⟩, Hcb, Hc1, Hc2⟩
  iframe

theorem deal :
    iprop((bigSep Finset.univ fun c : Dev nD => bigSep Finset.univ fun o : Option (Kd × Fin 32) => (atPos ER (kcell (c, o)) 0 ∅ 0 : sProp 𝕄))
        ∗ bigSep Finset.univ fun c : Dev nD => (toks c : sProp 𝕄))
      ⊢ bigSep Finset.univ fun c : Dev nD => (linG c : sProp 𝕄) := by
  unfold toks linG chunkG
  simp only [bigSep_univ_option, bigSep_dcells, bigSep_bool, bigSep_sep']
  rw [bigSep_univ_equiv meshX (fun c : Dev nD => (dutyTok ER (barCell c) 0 false : sProp 𝕄)),
    bigSep_univ_equiv meshY (fun c : Dev nD => (dutyTok ER (barCell c) 0 true : sProp 𝕄)),
    bigSep_univ_equiv meshX (fun c : Dev nD => (bigSep Finset.univ fun k : Fin 32 => dutyTok ER (dcell c .r1 k) 0 false : sProp 𝕄)),
    bigSep_univ_equiv meshY (fun c : Dev nD => (bigSep Finset.univ fun k : Fin 32 => dutyTok ER (dcell c .r2 k) 0 false : sProp 𝕄))]
  iintro ⟨⟨Hb, Ha1, Ha2, Ha3, Ha4, Ha5⟩, ⟨Htx, Hty⟩, Ht1, Ht2, Ht3, Ht4, Ht5⟩
  isplitl [Hb]; · iexact Hb
  isplitl [Htx]; · iexact Htx
  isplitl [Hty]; · iexact Hty
  isplitl [Ha1]; · iexact Ha1
  isplitl [Ha2]; · iexact Ha2
  isplitl [Ha3]; · iexact Ha3
  isplitl [Ha4]; · iexact Ha4
  isplitl [Ha5]; · iexact Ha5
  isplitl [Ht2]; · iexact Ht2
  isplitl [Ht4]; · iexact Ht4
  isplitl [Ht1]; · iexact Ht1
  isplitl [Ht3]; · iexact Ht3
  iexact Ht5

theorem regroup :
    (bigSep Finset.univ fun c : Dev nD => iprop((bigSep Finset.univ fun o : Option (Kd × Fin 32) => iprop(∃ κ : ℕ, cellInv ER (Rd m) κ (kcell (c, o))))
          ∗ (bigSep Finset.univ fun o : Option (Kd × Fin 32) => iprop(atPos ER (kcell (c, o)) 0 ∅ 0 ∗ reached ER (kcell (c, o)) 0)) ∗ toks c) : sProp 𝕄)
      ⊢ bigSep Finset.univ (G' m) := by
  rw [bigSep_sep', bigSep_sep', ← bigSep_univ_prod (fun ck : KIx => iprop(∃ κ : ℕ, cellInv ER (Rd m) κ (kcell ck))),
    bigSep_congr (s := Finset.univ) (fun (c : Dev nD) _ => bigSep_sep' Finset.univ (fun o : Option (Kd × Fin 32) => (atPos ER (kcell (c, o)) 0 ∅ 0 : sProp 𝕄)) (fun o => reached ER (kcell (c, o)) 0)),
    bigSep_sep', ← bigSep_univ_prod (fun ck : KIx => (reached ER (kcell ck) 0 : sProp 𝕄))]
  iintro ⟨HI, ⟨Hat, #HR⟩, Htok⟩
  ihave HK := (BI.bigSep_exists_pi Finset.univ (fun (ck : KIx) (κ : ℕ) => (cellInv ER (Rd m) κ (kcell ck) : sProp 𝕄))) $$ HI
  icases HK with ⟨%K, #HI⟩
  ihave Hl := (deal (F := F)) $$ [Hat Htok]
  · isplitl [Hat] <;> iassumption
  iapply (bigSep_with_persistent (R := records m K) (Φ := fun c : Dev nD => (linG c : sProp 𝕄)) fun c _ => show iprop(records m K ∗ linG c) ⊢ G' m c from by
    unfold G'
    iintro ⟨#H, Hl⟩
    isplitr
    · iexists K; iexact H
    · iexact Hl)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem O₀_eq : (O₀ : Dev nD → CellTallies nD τ sig Unit) = fun d =>
    (((∑ k : Fin 32, tallyAt (dcell (yn d) .r2 k) () N) + (∑ k : Fin 32, tallyAt (dcell (xn d) .r1 k) () N))
      + tallyAt (barCell (yn d)) () 1) + tallyAt (barCell (xn d)) () 1 := by
  funext d; unfold O₀ O₁ R1 R2 tR1 tR2
  rw [Finset.filter_true_of_mem (fun k _ => Nat.zero_le _)]

theorem creds (c : Dev nD) :
    (Pipeline.launchCred O₀ c : sProp 𝕄) ⊢ iprop(cred (tallyAt (barCell c) () 2)
      ∗ (bigSep Finset.univ fun k : Fin 32 => cred (tallyAt (dcell c .r1 k) () N))
      ∗ bigSep Finset.univ fun k : Fin 32 => cred (tallyAt (dcell c .r2 k) () N)) := by
  rw [O₀_eq, Pipeline.launchCred_add, Pipeline.launchCred_add, Pipeline.launchCred_add, Pipeline.launchCred_sum, Pipeline.launchCred_sum]
  iintro ⟨⟨⟨H2, H1⟩, Hy⟩, Hx⟩
  ihave Hy' := (Pipeline.launchCred_tallyAt (.reg barS) yn yn yn_yn yn_yn () 1 c) $$ Hy
  ihave Hx' := (Pipeline.launchCred_tallyAt (.reg barS) xn xn xn_xn xn_xn () 1 c) $$ Hx
  isplitl [Hx' Hy']
  · rw [show (2 : ℕ) = 1 + 1 from rfl, ← tallyAt_add]
    iapply (cred_add _ _).2
    isplitl [Hx'] <;> iassumption
  have h1 : (bigSep Finset.univ fun k : Fin 32 => Pipeline.launchCred (fun d => tallyAt (dcell (xn d) .r1 k) () N) c : sProp 𝕄)
      ⊢ bigSep Finset.univ fun k : Fin 32 => cred (tallyAt (dcell c .r1 k) () N) :=
    bigSep_mono fun k _ => Pipeline.launchCred_tallyAt (.dma (dsem .r1 k)) xn xn xn_xn xn_xn () N c
  have h2 : (bigSep Finset.univ fun k : Fin 32 => Pipeline.launchCred (fun d => tallyAt (dcell (yn d) .r2 k) () N) c : sProp 𝕄)
      ⊢ bigSep Finset.univ fun k : Fin 32 => cred (tallyAt (dcell c .r2 k) () N) :=
    bigSep_mono fun k _ => Pipeline.launchCred_tallyAt (.dma (dsem .r2 k)) yn yn yn_yn yn_yn () N c
  isplitl [H1]
  · iapply h1; iexact H1
  · iapply h2; iexact H2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hout, Hlev, Hcr, -, HK, Hl⟩
  ihave Hc := (creds (F := F) c) $$ Hcr
  icases Hc with ⟨Hcb, Hc1, Hc2⟩
  imodintro
  unfold start
  isplitl
  · isplitl [HK]; · iexact HK
    isplitl [Hl Hcb Hc1 Hc2]
    · iapply (lin_intro (F := F) c)
      isplitl [Hl]; · iexact Hl
      isplitl [Hcb]; · iexact Hcb
      isplitl [Hc1] <;> iassumption
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hb, Hr⟩
  isplitl [Hs]; · iexact Hs
  isplitl [Hb] <;> iassumption

theorem phi1_exit (c : Dev nD) :
    (dats m ρ 0 c).Φ (Fin.last cfg0.N) ⊢ iprop((((c : Thread nD τ).loc main_v1) ↦{fullShare} outv m c) ∗ Pipeline.ownSems0 osem c ∗ Pipeline.scopedRest cfg0.spec c) := by
  rw [show (dats m ρ 0 c).Φ (Fin.last cfg0.N) = Φ₁ m c from rfl, scopedRest0_eq]
  unfold Φ₁ Pipeline.ownSems0
  iintro ⟨Ho, Hb, Hr, Hz⟩
  isplitl [Ho]; · iexact Ho
  isplitl [Hz]; · iexact Hz
  isplitl [Hb] <;> iassumption

theorem waits (c : Dev nD) : (levAts L lv : sProp 𝕄) ⊢ Pipeline.cellsWaits cfgs (dats m ρ) () 0 c :=
  Pipeline.cellsWaits_intro cfgs (dats m ρ) () 0 c fun w s t => by
    rw [show ((cfgs 0).win w).sem s = cc0_sem0_0 from stage_sem w s]
    exact mayWait_stage c _ (by
      rcases t with ⟨_ | _, ht⟩
      · exact Or.inl rfl
      · exact Or.inr rfl)

set_option maxRecDepth 8000 in

theorem run_main : θ_run (defs (F := F)) (onTc (τ := τ) (main (F := F))) (s₀ m ρ)
    (fun r => ∀ c : Dev nD, r.2.mem ((c.tc : Thread nD τ).loc main_v1) = outv m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun c => iprop(((c : Thread nD τ).loc main_v1) ↦{fullShare} outv m c)) (Z := fun _ => iprop(emp))
    (hX := start_intro m ρ) (hin := phi0_intro m ρ) (hout := phi1_exit m ρ)
    (QY := fun c s => s.mem ((c : Thread nD τ).loc main_v1) = outv m c)
    (hY := fun c s' => by
      iintro ⟨HY, -, HSI⟩
      icombine HSI HY gives %hx
      imodintro
      isplitr; · ipureintro; exact Buf.eq_of_forall_mem_univ hx
      iexact HSI)
    (hQ := fun s h c => ⟨(h c).2.2, ((h c).1 0).trans ((dats (F := F) m ρ 0 c).arrAt_in (0 : Fin 1) rfl _)⟩)

end Cert.KernelIdeal.Coll

end
-- ==== Proof.KI.Value.lean ====
import proofs.«900269_g7700000000000270_dist_redx_gaty_m2048_n1024_v7x_xy2x2_f32_1_alg».proof.Defs
import proofs.«900269_g7700000000000270_dist_redx_gaty_m2048_n1024_v7x_xy2x2_f32_1_alg».proof.Proof.KI.Sched
import proofs.«900269_g7700000000000270_dist_redx_gaty_m2048_n1024_v7x_xy2x2_f32_1_alg».proof.Proof.Gen.ReferenceIdeal
import proofs.«900269_g7700000000000270_dist_redx_gaty_m2048_n1024_v7x_xy2x2_f32_1_alg».proof.Proof.Gen.ReferenceIdeal.Run
import proofs.«900269_g7700000000000270_dist_redx_gaty_m2048_n1024_v7x_xy2x2_f32_1_alg».proof.Proof.Gen.ReferenceIdeal.Read
import proofs.«900269_g7700000000000270_dist_redx_gaty_m2048_n1024_v7x_xy2x2_f32_1_alg».proof.Proof.Gen.Pre_finite_inputs_Kernel
import proofs.«900269_g7700000000000270_dist_redx_gaty_m2048_n1024_v7x_xy2x2_f32_1_alg».proof.Proof.Gen.Pre_finite_inputs_ReferenceIdeal
import Idealize.ShloMosaic.Lib.Layout
import Idealize.ShloMosaic.Lib.ValueIdx

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem xs_eq (c : Dev nD) : xs m c = m ((c : Thread nD τ).loc main_arg0) := by
  unfold xs iblk
  exact Memref.read_access_unit_zero (Elt F) main_arg0 (funext fun a => by fin_cases a <;> rfl) _ _

theorem meshRow (d : Dev nD) : ((Layout.meshBlock [2, 2] ![[0], [1]] d) 0).val = d.val / 2 := by revert d; decide

theorem meshCol (d : Dev nD) : ((Layout.meshBlock [2, 2] ![[0], [1]] d) 1).val = d.val % 2 := by revert d; decide

theorem xn_row (d : Dev nD) : (xn d).val / 2 = 1 - d.val / 2 := by revert d; decide

theorem xn_colv (d : Dev nD) : (xn d).val % 2 = d.val % 2 := by revert d; decide

theorem colDev_colv (c : Dev nD) (j : Fin 2) : (colDev c j).val % 2 = j.val := by revert c j; decide
theorem row_lt (d : Dev nD) : d.val / 2 < 2 := by have h : d.val < 4 := d.isLt; omega

theorem at_congr (X : Cert.ReferenceIdeal.S4096x2048.Idx → EReal) {a a' : Fin 4096} {b b' : Fin 2048}
    (ha : a.val = a'.val) (hb : b.val = b'.val) : X (ix2 a b) = X (ix2 a' b') := by
  obtain rfl := Fin.ext ha; obtain rfl := Fin.ext hb; rfl

theorem block_apply (X : Cert.ReferenceIdeal.S4096x2048.Idx → EReal) (d : Dev nD) (p : Fin 2048) (q : Fin 1024) :
    (Layout.blockN ⟨2, ![2048, 1024]⟩ ⟨2, ![4096, 2048]⟩ (Layout.meshBlock [2, 2] ![[0], [1]] d) X) (ix2 p q)
      = X (ix2 (⟨2048 * (d.val / 2) + p.val, by have := row_lt d; omega⟩ : Fin 4096)
              (⟨1024 * (d.val % 2) + q.val, by omega⟩ : Fin 2048)) := by
  rw [Layout.blockN_apply]
  refine congrArg X (funext fun a => Fin.ext ?_)
  match a with
  | ⟨0, _⟩ =>
    show ((Layout.meshBlock [2, 2] ![[0], [1]] d) 0).val * 2048 + p.val = 2048 * (d.val / 2) + p.val
    rw [meshRow]; omega
  | ⟨1, _⟩ =>
    show ((Layout.meshBlock [2, 2] ![[0], [1]] d) 1).val * 1024 + q.val = 1024 * (d.val % 2) + q.val
    rw [meshCol]; omega

theorem ref_apply (X : Cert.ReferenceIdeal.S4096x2048.Idx → EReal) (i : Cert.ReferenceIdeal.S2048x2048.Idx) :
    Cert.ReferenceIdeal.Read.val_main_v1 (F := Ideal) X i
      = X (ix2 (⟨(i 0).val, by have := (i 0).isLt; show (i 0).val < 4096; have h : (i 0).val < 2048 := (i 0).isLt; omega⟩ : Fin 4096) (⟨(i 1).val, (i 1).isLt⟩ : Fin 2048))
        + X (ix2 (⟨2048 + (i 0).val, by have h : (i 0).val < 2048 := (i 0).isLt; omega⟩ : Fin 4096) (⟨(i 1).val, (i 1).isLt⟩ : Fin 2048)) := by
  have h0 : (i 0).val < 2048 := (i 0).isLt
  have h1 : (i 1).val < 2048 := (i 1).isLt
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply, Ideal.ofBits_def,
    Ideal.ofBits_zero_f32, zero_add]
  refine congrArg₂ (· + ·) (congrArg X (funext fun a => Fin.ext ?_)) (congrArg X (funext fun a => Fin.ext ?_))
  · match a with
    | ⟨0, _⟩ => show (((0 : Fin 2).val * 2048 + (i 0).val) * 2048 + (i 1).val) / 2048 = (i 0).val; simp only [Fin.val_zero]; omega
    | ⟨1, _⟩ => show (((0 : Fin 2).val * 2048 + (i 0).val) * 2048 + (i 1).val) % 2048 = (i 1).val; simp only [Fin.val_zero]; omega
  · match a with
    | ⟨0, _⟩ => show (((1 : Fin 2).val * 2048 + (i 0).val) * 2048 + (i 1).val) / 2048 = 2048 + (i 0).val; simp only [Fin.val_one]; omega
    | ⟨1, _⟩ => show (((1 : Fin 2).val * 2048 + (i 0).val) * 2048 + (i 1).val) % 2048 = (i 1).val; simp only [Fin.val_one]; omega

theorem outv_eq (mI : (ℓ : Loc nD τ sig) → Buf (Elt Ideal) ℓ) (X : Cert.ReferenceIdeal.S4096x2048.Idx → EReal)
    (hm : ∀ c : Dev nD, mI ((c.tc : Thread nD τ).loc main_arg0)
      = Layout.blockN ⟨2, ![2048, 1024]⟩ ⟨2, ![4096, 2048]⟩ (Layout.meshBlock [2, 2] ![[0], [1]] c) X)
    (c : Dev nD) : outv mI c = Cert.ReferenceIdeal.Read.val_main_v1 (F := Ideal) X := by
  funext i
  have h0 : (i 0).val < 2048 := (i 0).isLt
  have h1 : (i 1).val < 2048 := (i 1).isLt
  rw [ref_apply]
  unfold outv
  dsimp only
  generalize hd : colDev c ⟨(i 1).val / 1024, by omega⟩ = d
  have hcol : d.val % 2 = (i 1).val / 1024 := by rw [← hd]; exact colDev_colv c _
  unfold red
  rw [addf_apply, xs_eq, xs_eq]
  have e1 := hm d
  have e2 := hm (xn d)
  rw [e1, e2, block_apply, block_apply]
  have hx := xn_row d
  have hy := xn_colv d
  rcases Nat.lt_succ_iff_lt_or_eq.mp (row_lt d) with hr | hr
  · have hr0 : d.val / 2 = 0 := by omega
    exact congrArg₂ (· + ·) (at_congr X (by show 2048 * (d.val / 2) + (i 0).val = (i 0).val; omega)
        (by show 1024 * (d.val % 2) + (i 1).val % 1024 = (i 1).val; omega))
      (at_congr X (by show 2048 * ((xn d).val / 2) + (i 0).val = 2048 + (i 0).val; omega)
        (by show 1024 * ((xn d).val % 2) + (i 1).val % 1024 = (i 1).val; omega))
  · rw [add_comm (G := EReal)]
    exact congrArg₂ (· + ·) (at_congr X (by show 2048 * ((xn d).val / 2) + (i 0).val = (i 0).val; omega)
        (by show 1024 * ((xn d).val % 2) + (i 1).val % 1024 = (i 1).val; omega))
      (at_congr X (by show 2048 * (d.val / 2) + (i 0).val = 2048 + (i 0).val; omega)
        (by show 1024 * (d.val % 2) + (i 1).val % 1024 = (i 1).val; omega))

theorem frame_ri : Cert.frame_ReferenceIdeal := fun m' ρ' _ =>
  (θ_run Cert.ReferenceIdeal.defs _ _).mono (fun _ h c => (h c).2) (Cert.ReferenceIdeal.Value.run (F := Ideal) m' ρ')

theorem algebraic_of_run
    (hrun : ∀ (mI : (ℓ : Loc nD τ sig) → Buf (Elt Ideal) ℓ) (ρ : Dev nD → PrngReg),
      θ_run (Cert.KernelIdeal.defs (F := Ideal)) (onTc (τ := τ) (Cert.KernelIdeal.main (F := Ideal))) ⟨mI, fun _ => 0, ρ⟩
        (fun r => ∀ c : Dev nD, r.2.mem ((c.tc : Thread nD τ).loc main_v1) = outv mI c
          ∧ r.2.mem ((c.tc : Thread nD τ).loc main_arg0) = mI ((c.tc : Thread nD τ).loc main_arg0))) :
    Cert.algebraic_KernelIdeal_ReferenceIdeal := by
  intro mI ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun r h c => ⟨(h c).1.trans (outv_eq mI _ hagree c), (h c).2⟩) (hrun mI ρ)
  · exact (θ_run Cert.ReferenceIdeal.defs _ _).mono
      (fun r h => ⟨(h 0).1.trans (Cert.ReferenceIdeal.Read.val_main_v1_eq _), (h 0).2⟩)
      (Cert.ReferenceIdeal.Value.run (F := Ideal) m' ρ')

/-- info: 'Cert.KernelIdeal.Coll.frame_ri' depends on axioms: [propext, Classical.choice, Quot.sound] -/
#guard_msgs in #print axioms frame_ri
/-- info: 'Cert.KernelIdeal.Coll.algebraic_of_run' depends on axioms: [propext, Classical.choice, Quot.sound] -/
#guard_msgs in #print axioms algebraic_of_run

end Cert.KernelIdeal.Coll

end
-- ==== Proof.lean ====
import proofs.«900269_g7700000000000270_dist_redx_gaty_m2048_n1024_v7x_xy2x2_f32_1_alg».proof.Defs
import proofs.«900269_g7700000000000270_dist_redx_gaty_m2048_n1024_v7x_xy2x2_f32_1_alg».proof.Proof.Gen.Kernel
import proofs.«900269_g7700000000000270_dist_redx_gaty_m2048_n1024_v7x_xy2x2_f32_1_alg».proof.Proof.Gen.Kernel.Skeleton
import proofs.«900269_g7700000000000270_dist_redx_gaty_m2048_n1024_v7x_xy2x2_f32_1_alg».proof.Proof.Gen.Kernel.Launch
import proofs.«900269_g7700000000000270_dist_redx_gaty_m2048_n1024_v7x_xy2x2_f32_1_alg».proof.Proof.Gen.Kernel.Points
import proofs.«900269_g7700000000000270_dist_redx_gaty_m2048_n1024_v7x_xy2x2_f32_1_alg».proof.Proof.Gen.Kernel.Frame
import proofs.«900269_g7700000000000270_dist_redx_gaty_m2048_n1024_v7x_xy2x2_f32_1_alg».proof.Proof.Gen.KernelIdeal
import proofs.«900269_g7700000000000270_dist_redx_gaty_m2048_n1024_v7x_xy2x2_f32_1_alg».proof.Proof.Gen.KernelIdeal.Skeleton
import proofs.«900269_g7700000000000270_dist_redx_gaty_m2048_n1024_v7x_xy2x2_f32_1_alg».proof.Proof.Gen.KernelIdeal.Launch
import proofs.«900269_g7700000000000270_dist_redx_gaty_m2048_n1024_v7x_xy2x2_f32_1_alg».proof.Proof.Gen.KernelIdeal.Points
import proofs.«900269_g7700000000000270_dist_redx_gaty_m2048_n1024_v7x_xy2x2_f32_1_alg».proof.Proof.Gen.KernelIdeal.Frame
import proofs.«900269_g7700000000000270_dist_redx_gaty_m2048_n1024_v7x_xy2x2_f32_1_alg».proof.Proof.Gen.ReferenceIdeal
import proofs.«900269_g7700000000000270_dist_redx_gaty_m2048_n1024_v7x_xy2x2_f32_1_alg».proof.Proof.Gen.Pre_finite_inputs_Kernel
import proofs.«900269_g7700000000000270_dist_redx_gaty_m2048_n1024_v7x_xy2x2_f32_1_alg».proof.Proof.Gen.Pre_finite_inputs_ReferenceIdeal
import proofs.«900269_g7700000000000270_dist_redx_gaty_m2048_n1024_v7x_xy2x2_f32_1_alg».proof.Proof.KI.Launch
import proofs.«900269_g7700000000000270_dist_redx_gaty_m2048_n1024_v7x_xy2x2_f32_1_alg».proof.Proof.KB.Launch
import proofs.«900269_g7700000000000270_dist_redx_gaty_m2048_n1024_v7x_xy2x2_f32_1_alg».proof.Proof.KI.Value
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.Coll.run_main (F := Bits) m ρ)

theorem frame_ki : Cert.frame_KernelIdeal := fun m ρ _ =>
  (θ_run (Cert.KernelIdeal.defs (F := Ideal)) _ _).mono (fun _ h c => (h c).2) (Cert.KernelIdeal.Coll.run_main (F := Ideal) m ρ)

theorem algebraic : Cert.algebraic_KernelIdeal_ReferenceIdeal :=
  Cert.KernelIdeal.Coll.algebraic_of_run fun m ρ => Cert.KernelIdeal.Coll.run_main (F := Ideal) m ρ

/-- The kernel's two frames are its run, at either instance, with the values dropped; the value claim is the run at the ideal instance:
    every device ends with X[i, j] + X[2048 + i, j], the reference's sum over the two row halves. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.KernelIdeal.Coll.frame_ri, trivial, algebraic⟩

end Cert.Proof

end
